-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16 : Shape := ⟨2, ![1, 16]⟩
abbrev S3x16x2048 : Shape := ⟨3, ![3, 16, 2048]⟩
abbrev S32000x128 : Shape := ⟨2, ![32000, 128]⟩
abbrev S6144x128 : Shape := ⟨2, ![6144, 128]⟩
abbrev S6144x2048 : Shape := ⟨2, ![6144, 2048]⟩
abbrev S6144 : Shape := ⟨1, ![6144]⟩
abbrev S32000x2048 : Shape := ⟨2, ![32000, 2048]⟩
abbrev S32000 : Shape := ⟨1, ![32000]⟩
abbrev S_ : Shape := ⟨0, ![]⟩

class Facts : Prop where
  bcast_S_S3x16x2048 : S_.BroadcastsInDim S3x16x2048 (![] : Fin 0 → Fin S3x16x2048.rank)
  reducesTo_S3x16x2048_S_d0_1_2 : S3x16x2048.ReducesTo [0, 1, 2] S_
  h_S_ : 0 < S_.numel
  bcast_S_S32000x128 : S_.BroadcastsInDim S32000x128 (![] : Fin 0 → Fin S32000x128.rank)
  reducesTo_S32000x128_S_d0_1 : S32000x128.ReducesTo [0, 1] S_
  bcast_S_S6144x128 : S_.BroadcastsInDim S6144x128 (![] : Fin 0 → Fin S6144x128.rank)
  reducesTo_S6144x128_S_d0_1 : S6144x128.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S6144 : S_.BroadcastsInDim S6144 (![] : Fin 0 → Fin S6144.rank)
  reducesTo_S6144_S_d0 : S6144.ReducesTo [0] S_
  bcast_S_S32000x2048 : S_.BroadcastsInDim S32000x2048 (![] : Fin 0 → Fin S32000x2048.rank)
  reducesTo_S32000x2048_S_d0_1 : S32000x2048.ReducesTo [0, 1] S_
  bcast_S_S32000 : S_.BroadcastsInDim S32000 (![] : Fin 0 → Fin S32000.rank)
  reducesTo_S32000_S_d0 : S32000.ReducesTo [0] S_
  bcast_S_S1x16 : S_.BroadcastsInDim S1x16 (![] : Fin 0 → Fin S1x16.rank)
  reducesTo_S1x16_S_d0_1 : S1x16.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg0 : IVec S1x16 32) (main_arg15 : FVec F S32000x2048 .f32) (main_arg16 : FVec F S32000 .f32) (main_v63 : IVec S_ 1) (main_v67 : IVec S_ 1) : IVec S_ 1 :=
  let main_v68 : IVec S_ 1 := andi main_v63 main_v67
  let main_v69 : FVec F S32000x2048 .f32 := Host.absf main_arg15
  let main_cst_26 : FVec F S_ .f32 := constant S_ .f32 0x7F800000#32
  let main_v70 : FVec F S32000x2048 .f32 := broadcastInDim S32000x2048 ![] bcast_S_S32000x2048 main_cst_26
  let main_v71 : IVec S32000x2048 1 := cmpf .olt main_v69 main_v70
  let main_c_27 : IVec S_ 1 := constantI S_ 1 1#1
  let main_v72 : IVec S_ 1 := (fun x v => Host.reduce IntOp.andi x v reducesTo_S32000x2048_S_d0_1 h_S_) main_v71 main_c_27
  let main_v73 : IVec S_ 1 := andi main_v68 main_v72
  let main_v74 : FVec F S32000 .f32 := Host.absf main_arg16
  let main_cst_28 : FVec F S_ .f32 := constant S_ .f32 0x7F800000#32
  let main_v75 : FVec F S32000 .f32 := broadcastInDim S32000 ![] bcast_S_S32000 main_cst_28
  let main_v76 : IVec S32000 1 := cmpf .olt main_v74 main_v75
  let main_c_29 : IVec S_ 1 := constantI S_ 1 1#1
  let main_v77 : IVec S_ 1 := (fun x v => Host.reduce IntOp.andi x v reducesTo_S32000_S_d0 h_S_) main_v76 main_c_29
  let main_v78 : IVec S_ 1 := andi main_v73 main_v77
  let main_c_30 : IVec S_ 32 := constantI S_ 32 0#32
  let main_v79 : IVec S1x16 32 := broadcastInDim S1x16 ![] bcast_S_S1x16 main_c_30
  let main_v80 : IVec S1x16 1 := cmpi .sge main_arg0 main_v79
  let main_c_31 : IVec S_ 32 := constantI S_ 32 32000#32
  let main_v81 : IVec S1x16 32 := broadcastInDim S1x16 ![] bcast_S_S1x16 main_c_31
  let main_v82 : IVec S1x16 1 := cmpi .slt main_arg0 main_v81
  let main_v83 : IVec S1x16 1 := andi main_v80 main_v82
  let main_c_32 : IVec S_ 1 := constantI S_ 1 1#1
  let main_v84 : IVec S_ 1 := (fun x v => Host.reduce IntOp.andi x v reducesTo_S1x16_S_d0_1 h_S_) main_v83 main_c_32
  fn_part5 (F := F) main_v78 main_v84

def fn_part3 {F : FTy → Type} [FloatOps F] (main_arg0 : IVec S1x16 32) (main_arg12 : FVec F S6144x2048 .f32) (main_arg13 : FVec F S6144 .f32) (main_arg14 : FVec F S6144 .f32) (main_arg15 : FVec F S32000x2048 .f32) (main_arg16 : FVec F S32000 .f32) (main_v48 : IVec S_ 1) (main_v49 : FVec F S6144x2048 .f32) (main_v50 : FVec F S6144x2048 .f32) : IVec S_ 1 :=
  let main_v51 : IVec S6144x2048 1 := cmpf .olt main_v49 main_v50
  let main_c_19 : IVec S_ 1 := constantI S_ 1 1#1
  let main_v52 : IVec S_ 1 := (fun x v => Host.reduce IntOp.andi x v reducesTo_S6144x2048_S_d0_1 h_S_) main_v51 main_c_19
  let main_v53 : IVec S_ 1 := andi main_v48 main_v52
  let main_v54 : FVec F S6144x2048 .f32 := Host.absf main_arg12
  let main_cst_20 : FVec F S_ .f32 := constant S_ .f32 0x7F800000#32
  let main_v55 : FVec F S6144x2048 .f32 := broadcastInDim S6144x2048 ![] bcast_S_S6144x2048 main_cst_20
  let main_v56 : IVec S6144x2048 1 := cmpf .olt main_v54 main_v55
  let main_c_21 : IVec S_ 1 := constantI S_ 1 1#1
  let main_v57 : IVec S_ 1 := (fun x v => Host.reduce IntOp.andi x v reducesTo_S6144x2048_S_d0_1 h_S_) main_v56 main_c_21
  let main_v58 : IVec S_ 1 := andi main_v53 main_v57
  let main_v59 : FVec F S6144 .f32 := Host.absf main_arg13
  let main_cst_22 : FVec F S_ .f32 := constant S_ .f32 0x7F800000#32
  let main_v60 : FVec F S6144 .f32 := broadcastInDim S6144 ![] bcast_S_S6144 main_cst_22
  let main_v61 : IVec S6144 1 := cmpf .olt main_v59 main_v60
  let main_c_23 : IVec S_ 1 := constantI S_ 1 1#1
  let main_v62 : IVec S_ 1 := (fun x v => Host.reduce IntOp.andi x v reducesTo_S6144_S_d0 h_S_) main_v61 main_c_23
  let main_v63 : IVec S_ 1 := andi main_v58 main_v62
  let main_v64 : FVec F S6144 .f32 := Host.absf main_arg14
  let main_cst_24 : FVec F S_ .f32 := constant S_ .f32 0x7F800000#32
  let main_v65 : FVec F S6144 .f32 := broadcastInDim S6144 ![] bcast_S_S6144 main_cst_24
  let main_v66 : IVec S6144 1 := cmpf .olt main_v64 main_v65
  let main_c_25 : IVec S_ 1 := constantI S_ 1 1#1
  let main_v67 : IVec S_ 1 := (fun x v => Host.reduce IntOp.andi x v reducesTo_S6144_S_d0 h_S_) main_v66 main_c_25
  fn_part4 (F := F) main_arg0 main_arg15 main_arg16 main_v63 main_v67

def fn_part2 {F : FTy → Type} [FloatOps F] (main_arg0 : IVec S1x16 32) (main_arg8 : FVec F S6144x2048 .f32) (main_arg9 : FVec F S6144 .f32) (main_arg10 : FVec F S6144 .f32) (main_arg11 : FVec F S6144x2048 .f32) (main_arg12 : FVec F S6144x2048 .f32) (main_arg13 : FVec F S6144 .f32) (main_arg14 : FVec F S6144 .f32) (main_arg15 : FVec F S32000x2048 .f32) (main_arg16 : FVec F S32000 .f32) (main_v33 : IVec S_ 1) : IVec S_ 1 :=
  let main_v34 : FVec F S6144x2048 .f32 := Host.absf main_arg8
  let main_cst_12 : FVec F S_ .f32 := constant S_ .f32 0x7F800000#32
  let main_v35 : FVec F S6144x2048 .f32 := broadcastInDim S6144x2048 ![] bcast_S_S6144x2048 main_cst_12
  let main_v36 : IVec S6144x2048 1 := cmpf .olt main_v34 main_v35
  let main_c_13 : IVec S_ 1 := constantI S_ 1 1#1
  let main_v37 : IVec S_ 1 := (fun x v => Host.reduce IntOp.andi x v reducesTo_S6144x2048_S_d0_1 h_S_) main_v36 main_c_13
  let main_v38 : IVec S_ 1 := andi main_v33 main_v37
  let main_v39 : FVec F S6144 .f32 := Host.absf main_arg9
  let main_cst_14 : FVec F S_ .f32 := constant S_ .f32 0x7F800000#32
  let main_v40 : FVec F S6144 .f32 := broadcastInDim S6144 ![] bcast_S_S6144 main_cst_14
  let main_v41 : IVec S6144 1 := cmpf .olt main_v39 main_v40
  let main_c_15 : IVec S_ 1 := constantI S_ 1 1#1
  let main_v42 : IVec S_ 1 := (fun x v => Host.reduce IntOp.andi x v reducesTo_S6144_S_d0 h_S_) main_v41 main_c_15
  let main_v43 : IVec S_ 1 := andi main_v38 main_v42
  let main_v44 : FVec F S6144 .f32 := Host.absf main_arg10
  let main_cst_16 : FVec F S_ .f32 := constant S_ .f32 0x7F800000#32
  let main_v45 : FVec F S6144 .f32 := broadcastInDim S6144 ![] bcast_S_S6144 main_cst_16
  let main_v46 : IVec S6144 1 := cmpf .olt main_v44 main_v45
  let main_c_17 : IVec S_ 1 := constantI S_ 1 1#1
  let main_v47 : IVec S_ 1 := (fun x v => Host.reduce IntOp.andi x v reducesTo_S6144_S_d0 h_S_) main_v46 main_c_17
  let main_v48 : IVec S_ 1 := andi main_v43 main_v47
  let main_v49 : FVec F S6144x2048 .f32 := Host.absf main_arg11
  let main_cst_18 : FVec F S_ .f32 := constant S_ .f32 0x7F800000#32
  let main_v50 : FVec F S6144x2048 .f32 := broadcastInDim S6144x2048 ![] bcast_S_S6144x2048 main_cst_18
  fn_part3 (F := F) main_arg0 main_arg12 main_arg13 main_arg14 main_arg15 main_arg16 main_v48 main_v49 main_v50

def fn_part1 {F : FTy → Type} [FloatOps F] (main_arg0 : IVec S1x16 32) (main_arg5 : FVec F S6144 .f32) (main_arg6 : FVec F S6144 .f32) (main_arg7 : FVec F S6144x2048 .f32) (main_arg8 : FVec F S6144x2048 .f32) (main_arg9 : FVec F S6144 .f32) (main_arg10 : FVec F S6144 .f32) (main_arg11 : FVec F S6144x2048 .f32) (main_arg12 : FVec F S6144x2048 .f32) (main_arg13 : FVec F S6144 .f32) (main_arg14 : FVec F S6144 .f32) (main_arg15 : FVec F S32000x2048 .f32) (main_arg16 : FVec F S32000 .f32) (main_v13 : IVec S_ 1) (main_v16 : IVec S6144x2048 1) : IVec S_ 1 :=
  let main_c_5 : IVec S_ 1 := constantI S_ 1 1#1
  let main_v17 : IVec S_ 1 := (fun x v => Host.reduce IntOp.andi x v reducesTo_S6144x2048_S_d0_1 h_S_) main_v16 main_c_5
  let main_v18 : IVec S_ 1 := andi main_v13 main_v17
  let main_v19 : FVec F S6144 .f32 := Host.absf main_arg5
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S6144 .f32 := Host.absf main_arg6
  let main_cst_8 : FVec F S_ .f32 := constant S_ .f32 0x7F800000#32
  let main_v25 : FVec F S6144 .f32 := broadcastInDim S6144 ![] bcast_S_S6144 main_cst_8
  let main_v26 : IVec S6144 1 := cmpf .olt main_v24 main_v25
  let main_c_9 : IVec S_ 1 := constantI S_ 1 1#1
  let main_v27 : IVec S_ 1 := (fun x v => Host.reduce IntOp.andi x v reducesTo_S6144_S_d0 h_S_) main_v26 main_c_9
  let main_v28 : IVec S_ 1 := andi main_v23 main_v27
  let main_v29 : FVec F S6144x2048 .f32 := Host.absf main_arg7
  let main_cst_10 : FVec F S_ .f32 := constant S_ .f32 0x7F800000#32
  let main_v30 : FVec F S6144x2048 .f32 := broadcastInDim S6144x2048 ![] bcast_S_S6144x2048 main_cst_10
  let main_v31 : IVec S6144x2048 1 := cmpf .olt main_v29 main_v30
  let main_c_11 : IVec S_ 1 := constantI S_ 1 1#1
  let main_v32 : IVec S_ 1 := (fun x v => Host.reduce IntOp.andi x v reducesTo_S6144x2048_S_d0_1 h_S_) main_v31 main_c_11
  let main_v33 : IVec S_ 1 := andi main_v28 main_v32
  fn_part2 (F := F) main_arg0 main_arg8 main_arg9 main_arg10 main_arg11 main_arg12 main_arg13 main_arg14 main_arg15 main_arg16 main_v33

def fn {F : FTy → Type} [FloatOps F] (main_arg0 : IVec S1x16 32) (main_arg1 : FVec F S3x16x2048 .f32) (main_arg2 : FVec F S32000x128 .f32) (main_arg3 : FVec F S6144x128 .f32) (main_arg4 : FVec F S6144x2048 .f32) (main_arg5 : FVec F S6144 .f32) (main_arg6 : FVec F S6144 .f32) (main_arg7 : FVec F S6144x2048 .f32) (main_arg8 : FVec F S6144x2048 .f32) (main_arg9 : FVec F S6144 .f32) (main_arg10 : FVec F S6144 .f32) (main_arg11 : FVec F S6144x2048 .f32) (main_arg12 : FVec F S6144x2048 .f32) (main_arg13 : FVec F S6144 .f32) (main_arg14 : FVec F S6144 .f32) (main_arg15 : FVec F S32000x2048 .f32) (main_arg16 : FVec F S32000 .f32) : IVec S_ 1 :=
  let main_v0 : FVec F S3x16x2048 .f32 := Host.absf main_arg1
  let main_cst : FVec F S_ .f32 := constant S_ .f32 0x7F800000#32
  let main_v1 : FVec F S3x16x2048 .f32 := broadcastInDim S3x16x2048 ![] bcast_S_S3x16x2048 main_cst
  let main_v2 : IVec S3x16x2048 1 := cmpf .olt main_v0 main_v1
  let main_c : IVec S_ 1 := constantI S_ 1 1#1
  let main_v3 : IVec S_ 1 := (fun x v => Host.reduce IntOp.andi x v reducesTo_S3x16x2048_S_d0_1_2 h_S_) main_v2 main_c
  let main_v4 : FVec F S32000x128 .f32 := Host.absf main_arg2
  let main_cst_0 : FVec F S_ .f32 := constant S_ .f32 0x7F800000#32
  let main_v5 : FVec F S32000x128 .f32 := broadcastInDim S32000x128 ![] bcast_S_S32000x128 main_cst_0
  let main_v6 : IVec S32000x128 1 := cmpf .olt main_v4 main_v5
  let main_c_1 : IVec S_ 1 := constantI S_ 1 1#1
  let main_v7 : IVec S_ 1 := (fun x v => Host.reduce IntOp.andi x v reducesTo_S32000x128_S_d0_1 h_S_) main_v6 main_c_1
  let main_v8 : IVec S_ 1 := andi main_v3 main_v7
  let main_v9 : FVec F S6144x128 .f32 := Host.absf main_arg3
  let main_cst_2 : FVec F S_ .f32 := constant S_ .f32 0x7F800000#32
  let main_v10 : FVec F S6144x128 .f32 := broadcastInDim S6144x128 ![] bcast_S_S6144x128 main_cst_2
  let main_v11 : IVec S6144x128 1 := cmpf .olt main_v9 main_v10
  let main_c_3 : IVec S_ 1 := constantI S_ 1 1#1
  let main_v12 : IVec S_ 1 := (fun x v => Host.reduce IntOp.andi x v reducesTo_S6144x128_S_d0_1 h_S_) main_v11 main_c_3
  let main_v13 : IVec S_ 1 := andi main_v8 main_v12
  let main_v14 : FVec F S6144x2048 .f32 := Host.absf main_arg4
  let main_cst_4 : FVec F S_ .f32 := constant S_ .f32 0x7F800000#32
  let main_v15 : FVec F S6144x2048 .f32 := broadcastInDim S6144x2048 ![] bcast_S_S6144x2048 main_cst_4
  let main_v16 : IVec S6144x2048 1 := cmpf .olt main_v14 main_v15
  fn_part1 (F := F) main_arg0 main_arg5 main_arg6 main_arg7 main_arg8 main_arg9 main_arg10 main_arg11 main_arg12 main_arg13 main_arg14 main_arg15 main_arg16 main_v13 main_v16
-- ==== Kernel.lean ====
abbrev S1x16 : Shape := ⟨2, ![1, 16]⟩
abbrev S3x16x2048 : Shape := ⟨3, ![3, 16, 2048]⟩
abbrev S32000x128 : Shape := ⟨2, ![32000, 128]⟩
abbrev S6144x128 : Shape := ⟨2, ![6144, 128]⟩
abbrev S6144x2048 : Shape := ⟨2, ![6144, 2048]⟩
abbrev S6144 : Shape := ⟨1, ![6144]⟩
abbrev S32000x2048 : Shape := ⟨2, ![32000, 2048]⟩
abbrev S32000 : Shape := ⟨1, ![32000]⟩
abbrev S16 : Shape := ⟨1, ![16]⟩
abbrev S_ : Shape := ⟨0, ![]⟩
abbrev S16x1 : Shape := ⟨2, ![16, 1]⟩
abbrev S1 : Shape := ⟨1, ![1]⟩
abbrev S1x1 : Shape := ⟨2, ![1, 1]⟩
abbrev S16x128 : Shape := ⟨2, ![16, 128]⟩
abbrev S1x16x2048 : Shape := ⟨3, ![1, 16, 2048]⟩
abbrev S16x2048 : Shape := ⟨2, ![16, 2048]⟩
abbrev S3x2048x128 : Shape := ⟨3, ![3, 2048, 128]⟩
abbrev S3x2048x2048 : Shape := ⟨3, ![3, 2048, 2048]⟩
abbrev S3x2048 : Shape := ⟨2, ![3, 2048]⟩
abbrev S3x256x128 : Shape := ⟨3, ![3, 256, 128]⟩
abbrev S3x256x2048 : Shape := ⟨3, ![3, 256, 2048]⟩
abbrev S3x256 : Shape := ⟨2, ![3, 256]⟩
abbrev S16x256 : Shape := ⟨2, ![16, 256]⟩
abbrev S1x256x128 : Shape := ⟨3, ![1, 256, 128]⟩
abbrev S256x128 : Shape := ⟨2, ![256, 128]⟩
abbrev S1x256x2048 : Shape := ⟨3, ![1, 256, 2048]⟩
abbrev S256x2048 : Shape := ⟨2, ![256, 2048]⟩
abbrev S1x256 : Shape := ⟨2, ![1, 256]⟩
abbrev S256 : Shape := ⟨1, ![256]⟩
abbrev S1x32000 : Shape := ⟨2, ![1, 32000]⟩
abbrev S16x32000 : Shape := ⟨2, ![16, 32000]⟩
abbrev S1280x2048 : Shape := ⟨2, ![1280, 2048]⟩
abbrev S1x1280 : Shape := ⟨2, ![1, 1280]⟩
abbrev S16x1280 : Shape := ⟨2, ![16, 1280]⟩

abbrev nBuf : Space → Nat
  | .hbm => 86
  | .vmem => 43
  | .smem => 0
  | _ => 0

abbrev bufTy : (tb : Table) → Fin (tcTables nBuf tb) → BufTy
  | .hbm, ⟨0, _⟩ => ⟨S1x16, .i32⟩
  | .hbm, ⟨1, _⟩ => ⟨S3x16x2048, .f32⟩
  | .hbm, ⟨2, _⟩ => ⟨S32000x128, .f32⟩
  | .hbm, ⟨3, _⟩ => ⟨S6144x128, .f32⟩
  | .hbm, ⟨4, _⟩ => ⟨S6144x2048, .f32⟩
  | .hbm, ⟨5, _⟩ => ⟨S6144, .f32⟩
  | .hbm, ⟨6, _⟩ => ⟨S6144, .f32⟩
  | .hbm, ⟨7, _⟩ => ⟨S6144x2048, .f32⟩
  | .hbm, ⟨8, _⟩ => ⟨S6144x2048, .f32⟩
  | .hbm, ⟨9, _⟩ => ⟨S6144, .f32⟩
  | .hbm, ⟨10, _⟩ => ⟨S6144, .f32⟩
  | .hbm, ⟨11, _⟩ => ⟨S6144x2048, .f32⟩
  | .hbm, ⟨12, _⟩ => ⟨S6144x2048, .f32⟩
  | .hbm, ⟨13, _⟩ => ⟨S6144, .f32⟩
  | .hbm, ⟨14, _⟩ => ⟨S6144, .f32⟩
  | .hbm, ⟨15, _⟩ => ⟨S32000x2048, .f32⟩
  | .hbm, ⟨16, _⟩ => ⟨S32000, .f32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S1, .i32⟩
  | .hbm, ⟨27, _⟩ => ⟨S_, .i32⟩
  | .hbm, ⟨28, _⟩ => ⟨S16x1, .i32⟩
  | .hbm, ⟨29, _⟩ => ⟨S16x1, .i1⟩
  | .hbm, ⟨30, _⟩ => ⟨S1x1, .i32⟩
  | .hbm, ⟨31, _⟩ => ⟨S16x1, .i32⟩
  | .hbm, ⟨32, _⟩ => ⟨S16x1, .i1⟩
  | .hbm, ⟨33, _⟩ => ⟨S16x1, .i1⟩
  | .hbm, ⟨34, _⟩ => ⟨S_, .i1⟩
  | .hbm, ⟨35, _⟩ => ⟨S16, .i1⟩
  | .hbm, ⟨36, _⟩ => ⟨S16x128, .f32⟩
  | .hbm, ⟨37, _⟩ => ⟨S16x128, .i1⟩
  | .hbm, ⟨38, _⟩ => ⟨S_, .f32⟩
  | .hbm, ⟨39, _⟩ => ⟨S16x128, .f32⟩
  | .hbm, ⟨40, _⟩ => ⟨S16x128, .f32⟩
  | .hbm, ⟨41, _⟩ => ⟨S_, .f32⟩
  | .hbm, ⟨42, _⟩ => ⟨S16x128, .f32⟩
  | .hbm, ⟨43, _⟩ => ⟨S16x128, .f32⟩
  | .hbm, ⟨44, _⟩ => ⟨S1x16x2048, .f32⟩
  | .hbm, ⟨45, _⟩ => ⟨S16x2048, .f32⟩
  | .hbm, ⟨46, _⟩ => ⟨S3x2048x128, .f32⟩
  | .hbm, ⟨47, _⟩ => ⟨S3x2048x2048, .f32⟩
  | .hbm, ⟨48, _⟩ => ⟨S3x2048, .f32⟩
  | .hbm, ⟨49, _⟩ => ⟨S3x2048, .f32⟩
  | .hbm, ⟨50, _⟩ => ⟨S16x2048, .f32⟩
  | .hbm, ⟨51, _⟩ => ⟨S1x16x2048, .f32⟩
  | .hbm, ⟨52, _⟩ => ⟨S16x2048, .f32⟩
  | .hbm, ⟨53, _⟩ => ⟨S3x2048x2048, .f32⟩
  | .hbm, ⟨54, _⟩ => ⟨S3x2048x2048, .f32⟩
  | .hbm, ⟨55, _⟩ => ⟨S3x2048, .f32⟩
  | .hbm, ⟨56, _⟩ => ⟨S3x2048, .f32⟩
  | .hbm, ⟨57, _⟩ => ⟨S16x2048, .f32⟩
  | .hbm, ⟨58, _⟩ => ⟨S1x16x2048, .f32⟩
  | .hbm, ⟨59, _⟩ => ⟨S16x2048, .f32⟩
  | .hbm, ⟨60, _⟩ => ⟨S3x2048x2048, .f32⟩
  | .hbm, ⟨61, _⟩ => ⟨S3x2048x2048, .f32⟩
  | .hbm, ⟨62, _⟩ => ⟨S3x2048, .f32⟩
  | .hbm, ⟨63, _⟩ => ⟨S3x2048, .f32⟩
  | .hbm, ⟨64, _⟩ => ⟨S16x2048, .f32⟩
  | .hbm, ⟨65, _⟩ => ⟨S1x16x2048, .f32⟩
  | .hbm, ⟨66, _⟩ => ⟨S1x16x2048, .f32⟩
  | .hbm, ⟨67, _⟩ => ⟨S1x16x2048, .f32⟩
  | .hbm, ⟨68, _⟩ => ⟨S3x16x2048, .f32⟩
  | .hbm, ⟨69, _⟩ => ⟨S1x32000, .f32⟩
  | .hbm, ⟨70, _⟩ => ⟨S16x32000, .f32⟩
  | .hbm, ⟨71, _⟩ => ⟨S_, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16x1, .f32⟩
  | .hbm, ⟨77, _⟩ => ⟨S16x32000, .f32⟩
  | .hbm, ⟨78, _⟩ => ⟨S16x32000, .f32⟩
  | .hbm, ⟨79, _⟩ => ⟨S16x32000, .f32⟩
  | .hbm, ⟨80, _⟩ => ⟨S_, .f32⟩
  | .hbm, ⟨81, _⟩ => ⟨S16, .f32⟩
  | .hbm, ⟨82, _⟩ => ⟨S16x1, .f32⟩
  | .hbm, ⟨83, _⟩ => ⟨S16x1, .f32⟩
  | .hbm, ⟨84, _⟩ => ⟨S16x32000, .f32⟩
  | .hbm, ⟨85, _⟩ => ⟨S16x32000, .f32⟩
  | .local _ .vmem, ⟨0, _⟩ => ⟨S16x128, .f32⟩
  | .local _ .vmem, ⟨1, _⟩ => ⟨S16x2048, .f32⟩
  | .local _ .vmem, ⟨2, _⟩ => ⟨S3x256x128, .f32⟩
  | .local _ .vmem, ⟨3, _⟩ => ⟨S3x256x128, .f32⟩
  | .local _ .vmem, ⟨4, _⟩ => ⟨S3x256x2048, .f32⟩
  | .local _ .vmem, ⟨5, _⟩ => ⟨S3x256x2048, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S16x256, .f32⟩
  | .local _ .vmem, ⟨11, _⟩ => ⟨S16x256, .f32⟩
  | .local _ .vmem, ⟨12, _⟩ => ⟨S16x2048, .f32⟩
  | .local _ .vmem, ⟨13, _⟩ => ⟨S16x2048, .f32⟩
  | .local _ .vmem, ⟨14, _⟩ => ⟨S3x256x2048, .f32⟩
  | .local _ .vmem, ⟨15, _⟩ => ⟨S3x256x2048, .f32⟩
  | .local _ .vmem, ⟨16, _⟩ => ⟨S3x256x2048, .f32⟩
  | .local _ .vmem, ⟨17, _⟩ => ⟨S3x256x2048, .f32⟩
  | .local _ .vmem, ⟨18, _⟩ => ⟨S3x256, .f32⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S16x256, .f32⟩
  | .local _ .vmem, ⟨23, _⟩ => ⟨S16x256, .f32⟩
  | .local _ .vmem, ⟨24, _⟩ => ⟨S16x2048, .f32⟩
  | .local _ .vmem, ⟨25, _⟩ => ⟨S16x2048, .f32⟩
  | .local _ .vmem, ⟨26, _⟩ => ⟨S3x256x2048, .f32⟩
  | .local _ .vmem, ⟨27, _⟩ => ⟨S3x256x2048, .f32⟩
  | .local _ .vmem, ⟨28, _⟩ => ⟨S3x256x2048, .f32⟩
  | .local _ .vmem, ⟨29, _⟩ => ⟨S3x256x2048, .f32⟩
  | .local _ .vmem, ⟨30, _⟩ => ⟨S3x256, .f32⟩
  | .local _ .vmem, ⟨31, _⟩ => ⟨S3x256, .f32⟩
  | .local _ .vmem, ⟨32, _⟩ => ⟨S3x256, .f32⟩
  | .local _ .vmem, ⟨33, _⟩ => ⟨S3x256, .f32⟩
  | .local _ .vmem, ⟨34, _⟩ => ⟨S16x256, .f32⟩
  | .local _ .vmem, ⟨35, _⟩ => ⟨S16x256, .f32⟩
  | .local _ .vmem, ⟨36, _⟩ => ⟨S16x2048, .f32⟩
  | .local _ .vmem, ⟨37, _⟩ => ⟨S1280x2048, .f32⟩
  | .local _ .vmem, ⟨38, _⟩ => ⟨S1280x2048, .f32⟩
  | .local _ .vmem, ⟨39, _⟩ => ⟨S1x1280, .f32⟩
  | .local _ .vmem, ⟨40, _⟩ => ⟨S1x1280, .f32⟩
  | .local _ .vmem, ⟨41, _⟩ => ⟨S16x1280, .f32⟩
  | .local _ .vmem, ⟨42, _⟩ => ⟨S16x1280, .f32⟩
  | _, _ => ⟨S1x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v1 : Ref sig .tc := ⟨.hbm, 40, rfl⟩
abbrev main_call1_cst : Ref sig .tc := ⟨.hbm, 41, rfl⟩
abbrev main_call1_v0 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_call2_cst : Ref sig .tc := ⟨.hbm, 71, rfl⟩
abbrev main_call2_v0 : Ref sig .tc := ⟨.hbm, 72, rfl⟩
abbrev main_call2_cst_0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_cst_1 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_v30 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0_3 : Index := 0#32
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  ![0, v8.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let c0_3 : Index := 0#32
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  ![0, v8.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S16x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def k2_mult1 (i : grid2.Coords) : BitVec 32 :=
  let arg0 : BitVec 32 := BitVec.ofNat 32 (i 0).val
  let c256_i32 : BitVec 32 := 256#32
  let v0 : BitVec 32 := Scalar.muli arg0 c256_i32
  v0
def k2_off1 (i : grid2.Coords) : Fin 2 → Nat :=
  let c0_3 : Index := 0#32
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  ![0, v8.toNat]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S16x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S16x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3x256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S3x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S16x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S16x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1280x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S16x1280 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S1x16_S16 : S1x16.ShapeCasts S16
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1_S1x1_1 : S1.BroadcastsInDim S1x1 (![1] : Fin 1 → Fin S1x1.rank)
  bcast_S1x1_S16x1_0_1 : S1x1.BroadcastsInDim S16x1 (![0, 1] : Fin 2 → Fin S16x1.rank)
  reducesTo_S16x1_S16_d1 : S16x1.ReducesTo [1] S16
  h_S_ : 0 < S_.numel
  bcast_S16_S16x128_0 : S16.BroadcastsInDim S16x128 (![0] : Fin 1 → Fin S16x128.rank)
  bcast_S_S16x128 : S_.BroadcastsInDim S16x128 (![] : Fin 0 → Fin S16x128.rank)
  slices_S3x16x2048_S1x16x2048_0_0_0 : S3x16x2048.Slices ![0, 0, 0] S1x16x2048
  shapeCasts_S1x16x2048_S16x2048 : S1x16x2048.ShapeCasts S16x2048
  shapeCasts_S6144x128_S3x2048x128 : S6144x128.ShapeCasts S3x2048x128
  shapeCasts_S6144x2048_S3x2048x2048 : S6144x2048.ShapeCasts S3x2048x2048
  shapeCasts_S6144_S3x2048 : S6144.ShapeCasts S3x2048
  inb_S16x128_S16x128_0_0 : ∀ a, (![0, 0] : Fin 2 → Nat) a + S16x128.size a ≤ S16x128.size a
  h_S16x128 : 0 < S16x128.numel
  shapeCasts_S16x128_S16x128 : S16x128.ShapeCasts S16x128
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  h_S16x256 : 0 < S16x256.numel
  shapeCasts_S16x256_S16x256 : S16x256.ShapeCasts S16x256
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  inb_S3x256x128_S1x256x128_1_0_0 : ∀ a, (![1, 0, 0] : Fin 3 → Nat) a + S1x256x128.size a ≤ S3x256x128.size a
  inb_S3x256x128_S1x256x128_2_0_0 : ∀ a, (![2, 0, 0] : Fin 3 → Nat) a + S1x256x128.size a ≤ S3x256x128.size a
  inb_S3x256x2048_S1x256x2048_0_0_0 : ∀ a, (![0, 0, 0] : Fin 3 → Nat) a + S1x256x2048.size a ≤ S3x256x2048.size a
  h_S1x256x2048 : 0 < S1x256x2048.numel
  shapeCasts_S1x256x2048_S256x2048 : S1x256x2048.ShapeCasts S256x2048
  inb_S3x256x2048_S1x256x2048_1_0_0 : ∀ a, (![1, 0, 0] : Fin 3 → Nat) a + S1x256x2048.size a ≤ S3x256x2048.size a
  inb_S3x256x2048_S1x256x2048_2_0_0 : ∀ a, (![2, 0, 0] : Fin 3 → Nat) a + S1x256x2048.size a ≤ S3x256x2048.size a
  inb_S3x256_S1x256_0_0 : ∀ a, (![0, 0] : Fin 2 → Nat) a + S1x256.size a ≤ S3x256.size a
  h_S1x256 : 0 < S1x256.numel
  shapeCasts_S1x256_S256 : S1x256.ShapeCasts S256
  inb_S3x256_S1x256_1_0 : ∀ a, (![1, 0] : Fin 2 → Nat) a + S1x256.size a ≤ S3x256.size a
  inb_S3x256_S1x256_2_0 : ∀ a, (![2, 0] : Fin 2 → Nat) a + S1x256.size a ≤ S3x256.size a
  shapeCasts_S256_S1x256 : S256.ShapeCasts S1x256
  broadcasts_S1x256_S16x256 : S1x256.Broadcasts S16x256
  inb_S16x256_S16x256_0_0 : ∀ a, (![0, 0] : Fin 2 → Nat) a + S16x256.size a ≤ S16x256.size a
  slices_S3x16x2048_S1x16x2048_1_0_0 : S3x16x2048.Slices ![1, 0, 0] S1x16x2048
  slices_S3x16x2048_S1x16x2048_2_0_0 : S3x16x2048.Slices ![2, 0, 0] S1x16x2048
  bcast_S16x2048_S1x16x2048_1_2 : S16x2048.BroadcastsInDim S1x16x2048 (![1, 2] : Fin 2 → Fin S1x16x2048.rank)
  concatenates_S1x16x2048_S1x16x2048_S1x16x2048_S3x16x2048_d0 : Shape.Concatenates [S1x16x2048, S1x16x2048, S1x16x2048] S3x16x2048 0
  shapeCasts_S32000_S1x32000 : S32000.ShapeCasts S1x32000
  inb_S1280x2048_S1280x2048_0_0 : ∀ a, (![0, 0] : Fin 2 → Nat) a + S1280x2048.size a ≤ S1280x2048.size a
  h_S1280x2048 : 0 < S1280x2048.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S16x1280 : S1x1280.Broadcasts S16x1280
  inb_S16x1280_S16x1280_0_0 : ∀ a, (![0, 0] : Fin 2 → Nat) a + S16x1280.size a ≤ S16x1280.size a
  h_S16x1280 : 0 < S16x1280.numel
  reducesTo_S16x32000_S16_d1 : S16x32000.ReducesTo [1] S16
  bcast_S16x1_S16x32000_0_1 : S16x1.BroadcastsInDim S16x32000 (![0, 1] : Fin 2 → Fin S16x32000.rank)
  gather_S32000x128_S16x1_S16x128_1_0_n_n_0_1_1128_wf : GatherDims.WF S32000x128 S16x1 S16x128 [1] [0] [] [0] [] 1 ![1, 128]
  dot_S16x128_S256x128_S16x256_1_1_0_0_n_n_wf : DotDims.WF S16x128 S256x128 S16x256 [1] [1] [0] [0] [] []
  dot_S16x2048_S256x2048_S16x256_1_1_0_0_n_n_wf : DotDims.WF S16x2048 S256x2048 S16x256 [1] [1] [0] [0] [] []
  dot_S16x2048_S1280x2048_S16x1280_1_1_0_0_n_n_wf : DotDims.WF S16x2048 S1280x2048 S16x1280 [1] [1] [0] [0] [] []
  hrank0 : 0 < grid0.rank
  k0_mult1_dvd : ∀ i : grid0.Coords, 256 ∣ (k0_mult1 i).toNat
  k0_off1_inb : ∀ i : grid0.Coords, ∀ a, (k0_off1 i) a + S16x256.size a ≤ S16x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S16x128.size a
  hwx0_0 : ∀ i : grid0.Coords, EltTy.bits .f32 = 32 ∨ (Rect.block (s := S16x128) S16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256x128.size a ≤ S3x2048x128.size a
  hwx0_2 : ∀ i : grid0.Coords, EltTy.bits .f32 = 32 ∨ (Rect.block (s := S3x2048x128) S3x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x256x2048.size a ≤ S3x2048x2048.size a
  hwx0_3 : ∀ i : grid0.Coords, EltTy.bits .f32 = 32 ∨ (Rect.block (s := S3x2048x2048) S3x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3x256.size a ≤ S3x2048.size a
  hwx0_4 : ∀ i : grid0.Coords, EltTy.bits .f32 = 32 ∨ (Rect.block (s := S3x2048) S3x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x2048.size a
  hwx0_5 : ∀ i : grid0.Coords, EltTy.bits .f32 = 32 ∨ (Rect.block (s := S3x2048) S3x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S16x2048.size a
  hwx0_6 : ∀ i : grid0.Coords, EltTy.bits .f32 = 32 ∨ (Rect.block (s := S16x2048) S16x256.size (cc0_transform_6 i) (hinb0_6 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S16x256.size a ≤ S16x2048.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S16x2048.size a ≤ S16x2048.size a
  hwx1_0 : ∀ i : grid1.Coords, EltTy.bits .f32 = 32 ∨ (Rect.block (s := S16x2048) S16x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2048.size a ≤ S16x2048.size a
  hwx1_1 : ∀ i : grid1.Coords, EltTy.bits .f32 = 32 ∨ (Rect.block (s := S16x2048) S16x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x256x2048.size a ≤ S3x2048x2048.size a
  hwx1_2 : ∀ i : grid1.Coords, EltTy.bits .f32 = 32 ∨ (Rect.block (s := S3x2048x2048) S3x256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x256x2048.size a ≤ S3x2048x2048.size a
  hwx1_3 : ∀ i : grid1.Coords, EltTy.bits .f32 = 32 ∨ (Rect.block (s := S3x2048x2048) S3x256x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x256.size a ≤ S3x2048.size a
  hwx1_4 : ∀ i : grid1.Coords, EltTy.bits .f32 = 32 ∨ (Rect.block (s := S3x2048) S3x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x256.size a ≤ S3x2048.size a
  hwx1_5 : ∀ i : grid1.Coords, EltTy.bits .f32 = 32 ∨ (Rect.block (s := S3x2048) S3x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S16x256.size a ≤ S16x2048.size a
  hwx1_6 : ∀ i : grid1.Coords, EltTy.bits .f32 = 32 ∨ (Rect.block (s := S16x2048) S16x256.size (cc1_transform_6 i) (hinb1_6 i)).WholeWords (EltTy.packing .f32)
  hrank2 : 0 < grid2.rank
  k2_mult1_dvd : ∀ i : grid2.Coords, 256 ∣ (k2_mult1 i).toNat
  k2_off1_inb : ∀ i : grid2.Coords, ∀ a, (k2_off1 i) a + S16x256.size a ≤ S16x2048.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S16x2048.size a ≤ S16x2048.size a
  hwx2_0 : ∀ i : grid2.Coords, EltTy.bits .f32 = 32 ∨ (Rect.block (s := S16x2048) S16x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x2048.size a ≤ S16x2048.size a
  hwx2_1 : ∀ i : grid2.Coords, EltTy.bits .f32 = 32 ∨ (Rect.block (s := S16x2048) S16x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3x256x2048.size a ≤ S3x2048x2048.size a
  hwx2_2 : ∀ i : grid2.Coords, EltTy.bits .f32 = 32 ∨ (Rect.block (s := S3x2048x2048) S3x256x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x256x2048.size a ≤ S3x2048x2048.size a
  hwx2_3 : ∀ i : grid2.Coords, EltTy.bits .f32 = 32 ∨ (Rect.block (s := S3x2048x2048) S3x256x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3x256.size a ≤ S3x2048.size a
  hwx2_4 : ∀ i : grid2.Coords, EltTy.bits .f32 = 32 ∨ (Rect.block (s := S3x2048) S3x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3x256.size a ≤ S3x2048.size a
  hwx2_5 : ∀ i : grid2.Coords, EltTy.bits .f32 = 32 ∨ (Rect.block (s := S3x2048) S3x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S16x256.size a ≤ S16x2048.size a
  hwx2_6 : ∀ i : grid2.Coords, EltTy.bits .f32 = 32 ∨ (Rect.block (s := S16x2048) S16x256.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S16x2048.size a ≤ S16x2048.size a
  hwx3_0 : ∀ i : grid3.Coords, EltTy.bits .f32 = 32 ∨ (Rect.block (s := S16x2048) S16x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x2048.size a ≤ S32000x2048.size a
  hwx3_1 : ∀ i : grid3.Coords, EltTy.bits .f32 = 32 ∨ (Rect.block (s := S32000x2048) S1280x2048.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1280.size a ≤ S1x32000.size a
  hwx3_2 : ∀ i : grid3.Coords, EltTy.bits .f32 = 32 ∨ (Rect.block (s := S1x32000) S1x1280.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S16x1280.size a ≤ S16x32000.size a
  hwx3_3 : ∀ i : grid3.Coords, EltTy.bits .f32 = 32 ∨ (Rect.block (s := S16x32000) S16x1280.size (cc3_transform_3 i) (hinb3_3 i)).WholeWords (EltTy.packing .f32)

variable [Facts₀]

def gather_S32000x128_S16x1_S16x128_1_0_n_n_0_1_1128 : GatherDims S32000x128 S16x1 S16x128 where
  offsetDims := [1]
  collapsedSliceDims := [0]
  operandBatchingDims := []
  startIndicesBatchingDims := []
  startIndexMap := [0]
  indexVectorDim := 1
  sliceSizes := ![1, 128]
  wf := gather_S32000x128_S16x1_S16x128_1_0_n_n_0_1_1128_wf
def dot_S16x128_S256x128_S16x256_1_1_0_0_n_n : DotDims S16x128 S256x128 S16x256 where
  lhsContracting := [1]
  rhsContracting := [1]
  lhsNonContracting := [0]
  rhsNonContracting := [0]
  lhsBatch := []
  rhsBatch := []
  wf := dot_S16x128_S256x128_S16x256_1_1_0_0_n_n_wf
def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf
def dot_S16x2048_S1280x2048_S16x1280_1_1_0_0_n_n : DotDims S16x2048 S1280x2048 S16x1280 where
  lhsContracting := [1]
  rhsContracting := [1]
  lhsNonContracting := [0]
  rhsNonContracting := [0]
  lhsBatch := []
  rhsBatch := []
  wf := dot_S16x2048_S1280x2048_S16x1280_1_1_0_0_n_n_wf

abbrev win0_0 : Pipeline.Window sig grid0 :=
  Pipeline.Window.ofSpec (Memref.whole main_v2) S16x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S3x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S3x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S3x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S3x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S16x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9) S16x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v11) S16x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S3x256x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S3x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S3x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S3x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16) S16x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v16) S16x2048.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v18) S16x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S3x256x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S3x256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v21) S3x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v22) S3x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v23) S16x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v23) S16x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg15) S1280x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x1280.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S16x1280.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S1x16 : Shape := ⟨2, ![1, 16]⟩
abbrev S3x16x2048 : Shape := ⟨3, ![3, 16, 2048]⟩
abbrev S32000x128 : Shape := ⟨2, ![32000, 128]⟩
abbrev S6144x128 : Shape := ⟨2, ![6144, 128]⟩
abbrev S6144x2048 : Shape := ⟨2, ![6144, 2048]⟩
abbrev S6144 : Shape := ⟨1, ![6144]⟩
abbrev S32000x2048 : Shape := ⟨2, ![32000, 2048]⟩
abbrev S32000 : Shape := ⟨1, ![32000]⟩
abbrev S16 : Shape := ⟨1, ![16]⟩
abbrev S_ : Shape := ⟨0, ![]⟩
abbrev S16x1 : Shape := ⟨2, ![16, 1]⟩
abbrev S16x128 : Shape := ⟨2, ![16, 128]⟩
abbrev S1x16x2048 : Shape := ⟨3, ![1, 16, 2048]⟩
abbrev S16x2048 : Shape := ⟨2, ![16, 2048]⟩
abbrev S128x6144 : Shape := ⟨2, ![128, 6144]⟩
abbrev S16x6144 : Shape := ⟨2, ![16, 6144]⟩
abbrev S1x6144 : Shape := ⟨2, ![1, 6144]⟩
abbrev S2048x6144 : Shape := ⟨2, ![2048, 6144]⟩
abbrev S2048x32000 : Shape := ⟨2, ![2048, 32000]⟩
abbrev S16x32000 : Shape := ⟨2, ![16, 32000]⟩
abbrev S1x32000 : Shape := ⟨2, ![1, 32000]⟩

abbrev nBuf : Space → Nat
  | .hbm => 189
  | .vmem => 0
  | .smem => 0
  | _ => 0

abbrev hbmTy0_0 (i : Nat) : BufTy := match i % 128 with
  | 0 => ⟨S1x16, .i32⟩
  | 1 => ⟨S3x16x2048, .f32⟩
  | 2 => ⟨S32000x128, .f32⟩
  | 3 => ⟨S6144x128, .f32⟩
  | 4 => ⟨S6144x2048, .f32⟩
  | 5 => ⟨S6144, .f32⟩
  | 6 => ⟨S6144, .f32⟩
  | 7 => ⟨S6144x2048, .f32⟩
  | 8 => ⟨S6144x2048, .f32⟩
  | 9 => ⟨S6144, .f32⟩
  | 10 => ⟨S6144, .f32⟩
  | 11 => ⟨S6144x2048, .f32⟩
  | 12 => ⟨S6144x2048, .f32⟩
  | 13 => ⟨S6144, .f32⟩
  | 14 => ⟨S6144, .f32⟩
  | 15 => ⟨S32000x2048, .f32⟩
  | 16 => ⟨S32000, .f32⟩
  | 17 => ⟨S16, .i32⟩
  | 18 => ⟨S_, .i32⟩
  | 19 => ⟨S16, .i32⟩
  | 20 => ⟨S16, .i1⟩
  | 21 => ⟨S_, .i32⟩
  | 22 => ⟨S16, .i32⟩
  | 23 => ⟨S16, .i32⟩
  | 24 => ⟨S16, .i32⟩
  | 25 => ⟨S16x1, .i32⟩
  | 26 => ⟨S16x128, .f32⟩
  | 27 => ⟨S_, .f32⟩
  | 28 => ⟨S16x128, .f32⟩
  | 29 => ⟨S16x128, .f32⟩
  | 30 => ⟨S1x16x2048, .f32⟩
  | 31 => ⟨S16x2048, .f32⟩
  | 32 => ⟨S128x6144, .f32⟩
  | 33 => ⟨S16x6144, .f32⟩
  | 34 => ⟨S1x6144, .f32⟩
  | 35 => ⟨S16x6144, .f32⟩
  | 36 => ⟨S16x6144, .f32⟩
  | 37 => ⟨S2048x6144, .f32⟩
  | 38 => ⟨S16x6144, .f32⟩
  | 39 => ⟨S1x6144, .f32⟩
  | 40 => ⟨S16x6144, .f32⟩
  | 41 => ⟨S16x6144, .f32⟩
  | 42 => ⟨S16x2048, .f32⟩
  | 43 => ⟨S16x2048, .f32⟩
  | 44 => ⟨S16x2048, .f32⟩
  | 45 => ⟨S16x2048, .f32⟩
  | 46 => ⟨S16x2048, .f32⟩
  | 47 => ⟨S16x2048, .f32⟩
  | 48 => ⟨S16x2048, .f32⟩
  | 49 => ⟨S16x2048, .f32⟩
  | 50 => ⟨S16x2048, .f32⟩
  | 51 => ⟨S_, .f32⟩
  | 52 => ⟨S16x2048, .f32⟩
  | 53 => ⟨S16x2048, .f32⟩
  | 54 => ⟨S_, .f32⟩
  | 55 => ⟨S16x2048, .f32⟩
  | 56 => ⟨S16x2048, .f32⟩
  | 57 => ⟨S16x2048, .f32⟩
  | 58 => ⟨S16x2048, .f32⟩
  | 59 => ⟨S16x2048, .f32⟩
  | 60 => ⟨S_, .f32⟩
  | 61 => ⟨S16x2048, .f32⟩
  | 62 => ⟨S16x2048, .f32⟩
  | 63 => ⟨S_, .f32⟩
  | 64 => ⟨S16x2048, .f32⟩
  | 65 => ⟨S16x2048, .f32⟩
  | 66 => ⟨S16x2048, .f32⟩
  | 67 => ⟨S16x2048, .f32⟩
  | 68 => ⟨S16x2048, .f32⟩
  | 69 => ⟨S_, .f32⟩
  | 70 => ⟨S16x2048, .f32⟩
  | 71 => ⟨S16x2048, .f32⟩
  | 72 => ⟨S16x2048, .f32⟩
  | 73 => ⟨S16x2048, .f32⟩
  | 74 => ⟨S16x2048, .f32⟩
  | 75 => ⟨S1x16x2048, .f32⟩
  | 76 => ⟨S16x2048, .f32⟩
  | 77 => ⟨S2048x6144, .f32⟩
  | 78 => ⟨S16x6144, .f32⟩
  | 79 => ⟨S1x6144, .f32⟩
  | 80 => ⟨S16x6144, .f32⟩
  | 81 => ⟨S16x6144, .f32⟩
  | 82 => ⟨S2048x6144, .f32⟩
  | 83 => ⟨S16x6144, .f32⟩
  | 84 => ⟨S1x6144, .f32⟩
  | 85 => ⟨S16x6144, .f32⟩
  | 86 => ⟨S16x6144, .f32⟩
  | 87 => ⟨S16x2048, .f32⟩
  | 88 => ⟨S16x2048, .f32⟩
  | 89 => ⟨S16x2048, .f32⟩
  | 90 => ⟨S16x2048, .f32⟩
  | 91 => ⟨S16x2048, .f32⟩
  | 92 => ⟨S16x2048, .f32⟩
  | 93 => ⟨S16x2048, .f32⟩
  | 94 => ⟨S16x2048, .f32⟩
  | 95 => ⟨S16x2048, .f32⟩
  | 96 => ⟨S_, .f32⟩
  | 97 => ⟨S16x2048, .f32⟩
  | 98 => ⟨S16x2048, .f32⟩
  | 99 => ⟨S_, .f32⟩
  | 100 => ⟨S16x2048, .f32⟩
  | 101 => ⟨S16x2048, .f32⟩
  | 102 => ⟨S16x2048, .f32⟩
  | 103 => ⟨S16x2048, .f32⟩
  | 104 => ⟨S16x2048, .f32⟩
  | 105 => ⟨S_, .f32⟩
  | 106 => ⟨S16x2048, .f32⟩
  | 107 => ⟨S16x2048, .f32⟩
  | 108 => ⟨S_, .f32⟩
  | 109 => ⟨S16x2048, .f32⟩
  | 110 => ⟨S16x2048, .f32⟩
  | 111 => ⟨S16x2048, .f32⟩
  | 112 => ⟨S16x2048, .f32⟩
  | 113 => ⟨S16x2048, .f32⟩
  | 114 => ⟨S_, .f32⟩
  | 115 => ⟨S16x2048, .f32⟩
  | 116 => ⟨S16x2048, .f32⟩
  | 117 => ⟨S16x2048, .f32⟩
  | 118 => ⟨S16x2048, .f32⟩
  | 119 => ⟨S16x2048, .f32⟩
  | 120 => ⟨S1x16x2048, .f32⟩
  | 121 => ⟨S16x2048, .f32⟩
  | 122 => ⟨S2048x6144, .f32⟩
  | 123 => ⟨S16x6144, .f32⟩
  | 124 => ⟨S1x6144, .f32⟩
  | 125 => ⟨S16x6144, .f32⟩
  | 126 => ⟨S16x6144, .f32⟩
  | 127 => ⟨S2048x6144, .f32⟩
  | _ => ⟨S1x16, .i32⟩

abbrev hbmTy0_1 (i : Nat) : BufTy := match i % 128 with
  | 0 => ⟨S16x6144, .f32⟩
  | 1 => ⟨S1x6144, .f32⟩
  | 2 => ⟨S16x6144, .f32⟩
  | 3 => ⟨S16x6144, .f32⟩
  | 4 => ⟨S16x2048, .f32⟩
  | 5 => ⟨S16x2048, .f32⟩
  | 6 => ⟨S16x2048, .f32⟩
  | 7 => ⟨S16x2048, .f32⟩
  | 8 => ⟨S16x2048, .f32⟩
  | 9 => ⟨S16x2048, .f32⟩
  | 10 => ⟨S16x2048, .f32⟩
  | 11 => ⟨S16x2048, .f32⟩
  | 12 => ⟨S16x2048, .f32⟩
  | 13 => ⟨S_, .f32⟩
  | 14 => ⟨S16x2048, .f32⟩
  | 15 => ⟨S16x2048, .f32⟩
  | 16 => ⟨S_, .f32⟩
  | 17 => ⟨S16x2048, .f32⟩
  | 18 => ⟨S16x2048, .f32⟩
  | 19 => ⟨S16x2048, .f32⟩
  | 20 => ⟨S16x2048, .f32⟩
  | 21 => ⟨S16x2048, .f32⟩
  | 22 => ⟨S_, .f32⟩
  | 23 => ⟨S16x2048, .f32⟩
  | 24 => ⟨S16x2048, .f32⟩
  | 25 => ⟨S_, .f32⟩
  | 26 => ⟨S16x2048, .f32⟩
  | 27 => ⟨S16x2048, .f32⟩
  | 28 => ⟨S16x2048, .f32⟩
  | 29 => ⟨S16x2048, .f32⟩
  | 30 => ⟨S16x2048, .f32⟩
  | 31 => ⟨S_, .f32⟩
  | 32 => ⟨S16x2048, .f32⟩
  | 33 => ⟨S16x2048, .f32⟩
  | 34 => ⟨S16x2048, .f32⟩
  | 35 => ⟨S16x2048, .f32⟩
  | 36 => ⟨S16x2048, .f32⟩
  | 37 => ⟨S1x16x2048, .f32⟩
  | 38 => ⟨S1x16x2048, .f32⟩
  | 39 => ⟨S1x16x2048, .f32⟩
  | 40 => ⟨S3x16x2048, .f32⟩
  | 41 => ⟨S2048x32000, .f32⟩
  | 42 => ⟨S16x32000, .f32⟩
  | 43 => ⟨S1x32000, .f32⟩
  | 44 => ⟨S16x32000, .f32⟩
  | 45 => ⟨S16x32000, .f32⟩
  | 46 => ⟨S_, .f32⟩
  | 47 => ⟨S16, .f32⟩
  | 48 => ⟨S_, .f32⟩
  | 49 => ⟨S16, .f32⟩
  | 50 => ⟨S16, .f32⟩
  | 51 => ⟨S16x1, .f32⟩
  | 52 => ⟨S16x32000, .f32⟩
  | 53 => ⟨S16x32000, .f32⟩
  | 54 => ⟨S16x32000, .f32⟩
  | 55 => ⟨S_, .f32⟩
  | 56 => ⟨S16, .f32⟩
  | 57 => ⟨S16x1, .f32⟩
  | 58 => ⟨S16x1, .f32⟩
  | 59 => ⟨S16x32000, .f32⟩
  | 60 => ⟨S16x32000, .f32⟩
  | _ => ⟨S1x16, .i32⟩

abbrev hbmTy (i : Nat) : BufTy := match i / 128 with
  | 0 => hbmTy0_0 i
  | 1 => hbmTy0_1 i
  | _ => ⟨S1x16, .i32⟩

abbrev bufTy : (tb : Table) → Fin (tcTables nBuf tb) → BufTy
  | .hbm, ⟨i, _⟩ => hbmTy i
  | _, _ => ⟨S1x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst : Ref sig .tc := ⟨.hbm, 51, rfl⟩
abbrev main_v30 : Ref sig .tc := ⟨.hbm, 52, rfl⟩
abbrev main_v31 : Ref sig .tc := ⟨.hbm, 53, rfl⟩
abbrev main_cst_1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_5 : Ref sig .tc := ⟨.hbm, 96, rfl⟩
abbrev main_v70 : Ref sig .tc := ⟨.hbm, 97, rfl⟩
abbrev main_v71 : Ref sig .tc := ⟨.hbm, 98, rfl⟩
abbrev main_cst_6 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_7 : Ref sig .tc := ⟨.hbm, 105, rfl⟩
abbrev main_v77 : Ref sig .tc := ⟨.hbm, 106, rfl⟩
abbrev main_v78 : Ref sig .tc := ⟨.hbm, 107, rfl⟩
abbrev main_cst_8 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_9 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_10 : Ref sig .tc := ⟨.hbm, 141, rfl⟩
abbrev main_v110 : Ref sig .tc := ⟨.hbm, 142, rfl⟩
abbrev main_v111 : Ref sig .tc := ⟨.hbm, 143, rfl⟩
abbrev main_cst_11 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_12 : Ref sig .tc := ⟨.hbm, 150, rfl⟩
abbrev main_v117 : Ref sig .tc := ⟨.hbm, 151, rfl⟩
abbrev main_v118 : Ref sig .tc := ⟨.hbm, 152, rfl⟩
abbrev main_cst_13 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_14 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_call1_cst : Ref sig .tc := ⟨.hbm, 174, rfl⟩
abbrev main_call1_v0 : Ref sig .tc := ⟨.hbm, 175, rfl⟩
abbrev main_call1_cst_0 : Ref sig .tc := ⟨.hbm, 176, rfl⟩
abbrev main_call1_v1 : Ref sig .tc := ⟨.hbm, 177, rfl⟩
abbrev main_call1_v2 : Ref sig .tc := ⟨.hbm, 178, rfl⟩
abbrev main_call1_v3 : Ref sig .tc := ⟨.hbm, 179, rfl⟩
abbrev main_call1_v4 : Ref sig .tc := ⟨.hbm, 180, rfl⟩
abbrev main_call1_v5 : Ref sig .tc := ⟨.hbm, 181, rfl⟩
abbrev main_call1_v6 : Ref sig .tc := ⟨.hbm, 182, rfl⟩
abbrev main_call1_cst_1 : Ref sig .tc := ⟨.hbm, 183, rfl⟩
abbrev main_call1_v7 : Ref sig .tc := ⟨.hbm, 184, rfl⟩
abbrev main_call1_v8 : Ref sig .tc := ⟨.hbm, 185, rfl⟩
abbrev main_call1_v9 : Ref sig .tc := ⟨.hbm, 186, rfl⟩
abbrev main_call1_v10 : Ref sig .tc := ⟨.hbm, 187, rfl⟩
abbrev main_v138 : Ref sig .tc := ⟨.hbm, 188, rfl⟩

abbrev nD : Nat := 1
abbrev τ : Topo := Topo.v7x

variable {F : FTy → Type} [FloatOps F]

class Facts₀ : Prop where
  shapeCasts_S1x16_S16 : S1x16.ShapeCasts S16
  bcast_S_S16 : S_.BroadcastsInDim S16 (![] : Fin 0 → Fin S16.rank)
  bcast_S16_S16x1_0 : S16.BroadcastsInDim S16x1 (![0] : Fin 1 → Fin S16x1.rank)
  bcast_S_S16x128 : S_.BroadcastsInDim S16x128 (![] : Fin 0 → Fin S16x128.rank)
  slices_S3x16x2048_S1x16x2048_0_0_0 : S3x16x2048.Slices ![0, 0, 0] S1x16x2048
  shapeCasts_S1x16x2048_S16x2048 : S1x16x2048.ShapeCasts S16x2048
  transposes_S6144x128_S128x6144_1_0 : S6144x128.Transposes [1, 0] S128x6144
  bcast_S6144_S1x6144_1 : S6144.BroadcastsInDim S1x6144 (![1] : Fin 1 → Fin S1x6144.rank)
  bcast_S1x6144_S16x6144_0_1 : S1x6144.BroadcastsInDim S16x6144 (![0, 1] : Fin 2 → Fin S16x6144.rank)
  transposes_S6144x2048_S2048x6144_1_0 : S6144x2048.Transposes [1, 0] S2048x6144
  slices_S16x6144_S16x2048_0_0 : S16x6144.Slices ![0, 0] S16x2048
  slices_S16x6144_S16x2048_0_2048 : S16x6144.Slices ![0, 2048] S16x2048
  slices_S16x6144_S16x2048_0_4096 : S16x6144.Slices ![0, 4096] S16x2048
  bcast_S_S16x2048 : S_.BroadcastsInDim S16x2048 (![] : Fin 0 → Fin S16x2048.rank)
  slices_S3x16x2048_S1x16x2048_1_0_0 : S3x16x2048.Slices ![1, 0, 0] S1x16x2048
  slices_S3x16x2048_S1x16x2048_2_0_0 : S3x16x2048.Slices ![2, 0, 0] S1x16x2048
  bcast_S16x2048_S1x16x2048_1_2 : S16x2048.BroadcastsInDim S1x16x2048 (![1, 2] : Fin 2 → Fin S1x16x2048.rank)
  concatenates_S1x16x2048_S1x16x2048_S1x16x2048_S3x16x2048_d0 : Shape.Concatenates [S1x16x2048, S1x16x2048, S1x16x2048] S3x16x2048 0
  transposes_S32000x2048_S2048x32000_1_0 : S32000x2048.Transposes [1, 0] S2048x32000
  bcast_S32000_S1x32000_1 : S32000.BroadcastsInDim S1x32000 (![1] : Fin 1 → Fin S1x32000.rank)
  bcast_S1x32000_S16x32000_0_1 : S1x32000.BroadcastsInDim S16x32000 (![0, 1] : Fin 2 → Fin S16x32000.rank)
  reducesTo_S16x32000_S16_d1 : S16x32000.ReducesTo [1] S16
  h_S_ : 0 < S_.numel
  bcast_S16x1_S16x32000_0_1 : S16x1.BroadcastsInDim S16x32000 (![0, 1] : Fin 2 → Fin S16x32000.rank)
  gather_S32000x128_S16x1_S16x128_1_0_n_n_0_1_1128_wf : GatherDims.WF S32000x128 S16x1 S16x128 [1] [0] [] [0] [] 1 ![1, 128]
  dot_S16x128_S128x6144_S16x6144_1_0_0_1_n_n_wf : DotDims.WF S16x128 S128x6144 S16x6144 [1] [0] [0] [1] [] []
  dot_S16x2048_S2048x6144_S16x6144_1_0_0_1_n_n_wf : DotDims.WF S16x2048 S2048x6144 S16x6144 [1] [0] [0] [1] [] []
  dot_S16x2048_S2048x32000_S16x32000_1_0_0_1_n_n_wf : DotDims.WF S16x2048 S2048x32000 S16x32000 [1] [0] [0] [1] [] []

variable [Facts₀]

def gather_S32000x128_S16x1_S16x128_1_0_n_n_0_1_1128 : GatherDims S32000x128 S16x1 S16x128 where
  offsetDims := [1]
  collapsedSliceDims := [0]
  operandBatchingDims := []
  startIndicesBatchingDims := []
  startIndexMap := [0]
  indexVectorDim := 1
  sliceSizes := ![1, 128]
  wf := gather_S32000x128_S16x1_S16x128_1_0_n_n_0_1_1128_wf
def dot_S16x128_S128x6144_S16x6144_1_0_0_1_n_n : DotDims S16x128 S128x6144 S16x6144 where
  lhsContracting := [1]
  rhsContracting := [0]
  lhsNonContracting := [0]
  rhsNonContracting := [1]
  lhsBatch := []
  rhsBatch := []
  wf := dot_S16x128_S128x6144_S16x6144_1_0_0_1_n_n_wf
def dot_S16x2048_S2048x6144_S16x6144_1_0_0_1_n_n : DotDims S16x2048 S2048x6144 S16x6144 where
  lhsContracting := [1]
  rhsContracting := [0]
  lhsNonContracting := [0]
  rhsNonContracting := [1]
  lhsBatch := []
  rhsBatch := []
  wf := dot_S16x2048_S2048x6144_S16x6144_1_0_0_1_n_n_wf
def dot_S16x2048_S2048x32000_S16x32000_1_0_0_1_n_n : DotDims S16x2048 S2048x32000 S16x32000 where
  lhsContracting := [1]
  rhsContracting := [0]
  lhsNonContracting := [0]
  rhsNonContracting := [1]
  lhsBatch := []
  rhsBatch := []
  wf := dot_S16x2048_S2048x32000_S16x32000_1_0_0_1_n_n_wf

class Facts : Prop extends Facts₀ where

variable [Facts]
-- ==== Proof.K.Bodies.lean ====
import proofs.«415147_j27384711479321_2_alg».proof.Proof.Gen.Kernel.Skeleton
import Idealize.ShloMosaic.Lib.Pipeline.FrameBody
import Idealize.ShloMosaic.Lib.Pipeline.Kit

set_option maxRecDepth 16384

noncomputable section

namespace Cert.Kernel.Seg

open Idealize.ShloMosaic Idealize.ShloMosaic.TcCoe Idealize.SL.Sem
open Cert.Kernel Cert.Kernel.Gen

variable {F : FTy → Type} [FloatOps F]

abbrev r0_x : Rect S16x128 := Rect.unit (s := S16x128) ![0, 0] S16x128.size inb_S16x128_S16x128_0_0
abbrev r0_h : Rect S16x2048 := Rect.unit (s := S16x2048) ![0, 0] S16x2048.size inb_S16x2048_S16x2048_0_0
abbrev r0_hcol (i : grid0.Coords) : Rect S16x2048 := Rect.unit (s := S16x2048) (k0_off1 i) S16x256.size (k0_off1_inb i)
abbrev r0_wi0 : Rect S3x256x128 := Rect.unit (s := S3x256x128) ![0, 0, 0] S1x256x128.size inb_S3x256x128_S1x256x128_0_0_0
abbrev r0_wi1 : Rect S3x256x128 := Rect.unit (s := S3x256x128) ![1, 0, 0] S1x256x128.size inb_S3x256x128_S1x256x128_1_0_0
abbrev r0_wi2 : Rect S3x256x128 := Rect.unit (s := S3x256x128) ![2, 0, 0] S1x256x128.size inb_S3x256x128_S1x256x128_2_0_0
abbrev r0_wh0 : Rect S3x256x2048 := Rect.unit (s := S3x256x2048) ![0, 0, 0] S1x256x2048.size inb_S3x256x2048_S1x256x2048_0_0_0
abbrev r0_wh1 : Rect S3x256x2048 := Rect.unit (s := S3x256x2048) ![1, 0, 0] S1x256x2048.size inb_S3x256x2048_S1x256x2048_1_0_0
abbrev r0_wh2 : Rect S3x256x2048 := Rect.unit (s := S3x256x2048) ![2, 0, 0] S1x256x2048.size inb_S3x256x2048_S1x256x2048_2_0_0
abbrev r0_b0 : Rect S3x256 := Rect.unit (s := S3x256) ![0, 0] S1x256.size inb_S3x256_S1x256_0_0
abbrev r0_b1 : Rect S3x256 := Rect.unit (s := S3x256) ![1, 0] S1x256.size inb_S3x256_S1x256_1_0
abbrev r0_b2 : Rect S3x256 := Rect.unit (s := S3x256) ![2, 0] S1x256.size inb_S3x256_S1x256_2_0
abbrev r0_out : Rect S16x256 := Rect.unit (s := S16x256) ![0, 0] S16x256.size inb_S16x256_S16x256_0_0

def newTile0 (i : grid0.Coords) (x0 : Vec F S16x128 .f32) (x1 : Vec F S16x2048 .f32) (x2 : Vec F S3x256x128 .f32)
    (x3 : Vec F S3x256x2048 .f32) (x4 x5 : Vec F S3x256 .f32) : FVec F S16x256 .f32 :=
  k0_pay1
    (k0_pay13 (k0_pay2 (View.ld x0 r0_x)) (k0_pay3 (View.ld x1 r0_h))
      (k0_pay5 (View.ld x2 r0_wi0)) (k0_pay6 (View.ld x2 r0_wi1)) (k0_pay7 (View.ld x2 r0_wi2))
      (k0_pay8 (View.ld x3 r0_wh0)) (k0_pay9 (View.ld x3 r0_wh1)) (k0_pay10 (View.ld x3 r0_wh2))
      (k0_pay11 (View.ld x4 r0_b0)) (View.ld x4 r0_b1) (View.ld x4 r0_b2)
      (View.ld x5 r0_b0) (View.ld x5 r0_b1) (View.ld x5 r0_b2))
    (k0_pay14 (k0_pay2 (View.ld x0 r0_x)) (k0_pay3 (View.ld x1 r0_h)) (k0_pay4 (View.ld x1 (r0_hcol i)))
      (k0_pay6 (View.ld x2 r0_wi1)) (k0_pay9 (View.ld x3 r0_wh1)) (View.ld x4 r0_b1) (View.ld x5 r0_b1))

def out0_6 (i : grid0.Coords) (x0 : Vec F S16x128 .f32) (x1 : Vec F S16x2048 .f32) (x2 : Vec F S3x256x128 .f32)
    (x3 : Vec F S3x256x2048 .f32) (x4 x5 : Vec F S3x256 .f32) : Vec F S16x256 .f32 :=
  View.canon [⟨r0_out, newTile0 i x0 x1 x2 x3 x4 x5⟩]

theorem cover0_6 (p0 : Vec F S16x256 .f32) (y : S16x256.Idx) :
    ∃ pc ∈ ([⟨r0_out, p0⟩] : List (View.Piece (Elt F) S16x256 .f32)), y ∈ pc.1.set :=
  View.cover_of_tiled [⟨r0_out, p0⟩] S16x256.size (by rfl) y

abbrev r1_hcol (i : grid1.Coords) : Rect S16x2048 := Rect.unit (s := S16x2048) (k1_off1 i) S16x256.size (k1_off1_inb i)
abbrev r1_out := r0_out

def newTile1 (i : grid1.Coords) (x0 : Vec F S16x2048 .f32) (x1 : Vec F S16x2048 .f32) (x2 : Vec F S3x256x2048 .f32)
    (x3 : Vec F S3x256x2048 .f32) (x4 x5 : Vec F S3x256 .f32) : FVec F S16x256 .f32 :=
  k1_pay1
    (k1_pay13 (k1_pay2 (View.ld x0 r0_h)) (k1_pay3 (View.ld x1 r0_h))
      (k1_pay5 (View.ld x2 r0_wh0)) (k1_pay6 (View.ld x2 r0_wh1)) (k1_pay7 (View.ld x2 r0_wh2))
      (k1_pay8 (View.ld x3 r0_wh0)) (k1_pay9 (View.ld x3 r0_wh1)) (k1_pay10 (View.ld x3 r0_wh2))
      (k1_pay11 (View.ld x4 r0_b0)) (View.ld x4 r0_b1) (View.ld x4 r0_b2)
      (View.ld x5 r0_b0) (View.ld x5 r0_b1) (View.ld x5 r0_b2))
    (k1_pay14 (k1_pay2 (View.ld x0 r0_h)) (k1_pay3 (View.ld x1 r0_h)) (k1_pay4 (View.ld x1 (r1_hcol i)))
      (k1_pay6 (View.ld x2 r0_wh1)) (k1_pay9 (View.ld x3 r0_wh1)) (View.ld x4 r0_b1) (View.ld x5 r0_b1))

def out1_6 (i : grid1.Coords) (x0 : Vec F S16x2048 .f32) (x1 : Vec F S16x2048 .f32) (x2 : Vec F S3x256x2048 .f32)
    (x3 : Vec F S3x256x2048 .f32) (x4 x5 : Vec F S3x256 .f32) : Vec F S16x256 .f32 :=
  View.canon [⟨r1_out, newTile1 i x0 x1 x2 x3 x4 x5⟩]

theorem cover1_6 (p0 : Vec F S16x256 .f32) (y : S16x256.Idx) :
    ∃ pc ∈ ([⟨r1_out, p0⟩] : List (View.Piece (Elt F) S16x256 .f32)), y ∈ pc.1.set :=
  cover0_6 p0 y

abbrev r2_hcol (i : grid2.Coords) : Rect S16x2048 := Rect.unit (s := S16x2048) (k2_off1 i) S16x256.size (k2_off1_inb i)
abbrev r2_out := r0_out

def newTile2 (i : grid2.Coords) (x0 : Vec F S16x2048 .f32) (x1 : Vec F S16x2048 .f32) (x2 : Vec F S3x256x2048 .f32)
    (x3 : Vec F S3x256x2048 .f32) (x4 x5 : Vec F S3x256 .f32) : FVec F S16x256 .f32 :=
  k2_pay1
    (k2_pay13 (k2_pay2 (View.ld x0 r0_h)) (k2_pay3 (View.ld x1 r0_h))
      (k2_pay5 (View.ld x2 r0_wh0)) (k2_pay6 (View.ld x2 r0_wh1)) (k2_pay7 (View.ld x2 r0_wh2))
      (k2_pay8 (View.ld x3 r0_wh0)) (k2_pay9 (View.ld x3 r0_wh1)) (k2_pay10 (View.ld x3 r0_wh2))
      (k2_pay11 (View.ld x4 r0_b0)) (View.ld x4 r0_b1) (View.ld x4 r0_b2)
      (View.ld x5 r0_b0) (View.ld x5 r0_b1) (View.ld x5 r0_b2))
    (k2_pay14 (k2_pay2 (View.ld x0 r0_h)) (k2_pay3 (View.ld x1 r0_h)) (k2_pay4 (View.ld x1 (r2_hcol i)))
      (k2_pay6 (View.ld x2 r0_wh1)) (k2_pay9 (View.ld x3 r0_wh1)) (View.ld x4 r0_b1) (View.ld x5 r0_b1))

def out2_6 (i : grid2.Coords) (x0 : Vec F S16x2048 .f32) (x1 : Vec F S16x2048 .f32) (x2 : Vec F S3x256x2048 .f32)
    (x3 : Vec F S3x256x2048 .f32) (x4 x5 : Vec F S3x256 .f32) : Vec F S16x256 .f32 :=
  View.canon [⟨r2_out, newTile2 i x0 x1 x2 x3 x4 x5⟩]

theorem cover2_6 (p0 : Vec F S16x256 .f32) (y : S16x256.Idx) :
    ∃ pc ∈ ([⟨r2_out, p0⟩] : List (View.Piece (Elt F) S16x256 .f32)), y ∈ pc.1.set :=
  cover0_6 p0 y

abbrev r3_w : Rect S1280x2048 := Rect.unit (s := S1280x2048) ![0, 0] S1280x2048.size inb_S1280x2048_S1280x2048_0_0
abbrev r3_b : Rect S1x1280 := Rect.unit (s := S1x1280) ![0, 0] S1x1280.size inb_S1x1280_S1x1280_0_0
abbrev r3_out : Rect S16x1280 := Rect.unit (s := S16x1280) ![0, 0] S16x1280.size inb_S16x1280_S16x1280_0_0

def logitTile (x0 : Vec F S16x2048 .f32) (x1 : Vec F S1280x2048 .f32) (x2 : Vec F S1x1280 .f32) : FVec F S16x1280 .f32 :=
  k3_pay1 (View.ld x0 r0_h) (View.ld x1 r3_w) (View.ld x2 r3_b)

def out3_3 (x0 : Vec F S16x2048 .f32) (x1 : Vec F S1280x2048 .f32) (x2 : Vec F S1x1280 .f32) : Vec F S16x1280 .f32 :=
  View.canon [⟨r3_out, logitTile x0 x1 x2⟩]

theorem cover3_3 (p0 : Vec F S16x1280 .f32) (y : S16x1280.Idx) :
    ∃ pc ∈ ([⟨r3_out, p0⟩] : List (View.Piece (Elt F) S16x1280 .f32)), y ∈ pc.1.set :=
  View.cover_of_tiled [⟨r3_out, p0⟩] S16x1280.size (by rfl) y

section Blocks

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Blocks

end Cert.Kernel.Seg

end
-- ==== Proof.K.Layer0.lean ====
import proofs.«415147_j27384711479321_2_alg».proof.Proof.K.Bodies
import proofs.«415147_j27384711479321_2_alg».proof.Proof.Gen.Kernel.Launch
import proofs.«415147_j27384711479321_2_alg».proof.Proof.Gen.Kernel.Skeleton
import proofs.«415147_j27384711479321_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Each load reads its buffer's contents at its rectangle; the one store covers the output block.
set_option maxHeartbeats 4000000 in
theorem sound_kernel0 (c : Dev nD) (E : Set ℕ) (i : grid0.Coords)
    {m0 : Memref sig .tc .vmem S16x128 .f32} {m1 : Memref sig .tc .vmem S16x2048 .f32} {m2 : Memref sig .tc .vmem S3x256x128 .f32} {m3 : Memref sig .tc .vmem S3x256x2048 .f32} {m4 m5 : Memref sig .tc .vmem S3x256 .f32} {m6 : Memref sig .tc .vmem S16x256 .f32}
    {h0 : m0.IsWhole} {h1 : m1.IsWhole} {h2 : m2.IsWhole} {h3 : m3.IsWhole} {h4 : m4.IsWhole} {h5 : m5.IsWhole} {h6 : m6.IsWhole}
    (x0 : Vec F S16x128 .f32) (x1 : Vec F S16x2048 .f32) (x2 : Vec F S3x256x128 .f32) (x3 : Vec F S3x256x2048 .f32) (x4 x5 : Vec F S3x256 .f32) {K : PUnit → sProp 𝕄} :
    let P := iprop(owns c.tc m0 fullShare x0 ∗ owns c.tc m1 fullShare x1 ∗ owns c.tc m2 fullShare x2 ∗ owns c.tc m3 fullShare x3 ∗ owns c.tc m4 fullShare x4 ∗ owns c.tc m5 fullShare x5)
    iprop(P ∗ (∃ d, owns c.tc m6 fullShare d) ∗ (iprop(P ∗ owns c.tc m6 fullShare (out0_6 i x0 x1 x2 x3 x4 x5)) -∗ K ⟨⟩))
      ⊢ wp frame (wpE (defs₀ (F := F)) Variants.none c none) E (cc0__gru_tile_kernel i m0 h0 m1 h1 m2 h2 m3 h3 m4 h4 m5 h5 m6 h6) K := by
  dsimp only
  simp only [cc0__gru_tile_kernel_eq_skeleton]; unfold cc0__gru_tile_kernel_skel
  simp only [k0_part1_eq_skeleton, k0_part2_eq_skeleton]; unfold k0_part1_skel k0_part2_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%_, %f6, -, H6⟩, Hk⟩
  subst e0 e1 e2 e3 e4 e5
  sl_exec
  sl_step
  iapply Hk
  isplitr [H6]
  · isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    iexists f5; iframe H5; ipureintro; rfl
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q _ := fullShare
  owed _ := 0

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) := by
  refine ⟨?_, ?_, ?_, ?_, ?_, ?_⟩ <;> exact (dat0 V c).before_in_eq_fetched _ rfl (fun _ => rfl) (fun _ _ _ => rfl) (fun _ => rfl) t

-- The body's triple at the point's blocks; what the body does not touch is framed.
theorem body_obligation0 (c : Dev nD) : BodyObligation (dat0 (F := F) V c) (defs₀ (F := F)) Variants.none () Set.univ := fun t => by
  rw [bigSep_W0, bigSep_W0]
  simp only [before0 V c t]
  dsimp only [dat0, Dat.owesAt, Dat.bound]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply sound_kernel0 c Set.univ (grid0.coords t) (iblk0 V c 0 t) (iblk0 V c 1 t) (iblk0 V c 2 t) (iblk0 V c 3 t) (iblk0 V c 4 t) (iblk0 V c 5 t)
  iframe H0 H1 H2 H3 H4 H5
  isplitl [H6]; · iexists _; iexact H6
  iintro ⟨⟨H0, H1, H2, H3, H4, H5⟩, H6⟩; iframe

end Cert.Kernel.Seg

end
-- ==== Proof.K.Layer1.lean ====
import proofs.«415147_j27384711479321_2_alg».proof.Proof.K.Bodies
import proofs.«415147_j27384711479321_2_alg».proof.Proof.Gen.Kernel.Launch
import proofs.«415147_j27384711479321_2_alg».proof.Proof.Gen.Kernel.Skeleton
import proofs.«415147_j27384711479321_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Each load reads its buffer's contents at its rectangle; the one store covers the output block.
set_option maxHeartbeats 1000000 in
theorem sound_kernel1 (c : Dev nD) (E : Set ℕ) (i : grid1.Coords)
    {m0 m1 : Memref sig .tc .vmem S16x2048 .f32} {m2 m3 : Memref sig .tc .vmem S3x256x2048 .f32} {m4 m5 : Memref sig .tc .vmem S3x256 .f32} {m6 : Memref sig .tc .vmem S16x256 .f32}
    {h0 : m0.IsWhole} {h1 : m1.IsWhole} {h2 : m2.IsWhole} {h3 : m3.IsWhole} {h4 : m4.IsWhole} {h5 : m5.IsWhole} {h6 : m6.IsWhole}
    (x0 x1 : Vec F S16x2048 .f32) (x2 x3 : Vec F S3x256x2048 .f32) (x4 x5 : Vec F S3x256 .f32) {K : PUnit → sProp 𝕄} :
    let P := iprop(owns c.tc m0 fullShare x0 ∗ owns c.tc m1 fullShare x1 ∗ owns c.tc m2 fullShare x2 ∗ owns c.tc m3 fullShare x3 ∗ owns c.tc m4 fullShare x4 ∗ owns c.tc m5 fullShare x5)
    iprop(P ∗ (∃ d, owns c.tc m6 fullShare d) ∗ (iprop(P ∗ owns c.tc m6 fullShare (out1_6 i x0 x1 x2 x3 x4 x5)) -∗ K ⟨⟩))
      ⊢ wp frame (wpE (defs₀ (F := F)) Variants.none c none) E (cc1__gru_tile_kernel i m0 h0 m1 h1 m2 h2 m3 h3 m4 h4 m5 h5 m6 h6) K := by
  dsimp only
  simp only [cc1__gru_tile_kernel_eq_skeleton]; unfold cc1__gru_tile_kernel_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%_, %f6, -, H6⟩, Hk⟩
  subst e0 e1 e2 e3 e4 e5
  sl_exec
  sl_step
  iapply Hk
  isplitr [H6]
  · isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    iexists f5; iframe H5; ipureintro; rfl
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) := by
  refine ⟨?_, ?_, ?_, ?_, ?_, ?_⟩ <;> exact (dat1 V c).before_in_eq_fetched _ rfl (fun _ => rfl) (fun _ _ _ => rfl) (fun _ => rfl) t

-- The body's triple at the point's blocks; what the body does not touch is framed.
theorem body_obligation1 (c : Dev nD) : BodyObligation (dat1 (F := F) V c) (defs₀ (F := F)) Variants.none () Set.univ := fun t => by
  rw [bigSep_W1, bigSep_W1]
  simp only [before1 V c t]
  dsimp only [dat1, Dat.owesAt, Dat.bound]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply sound_kernel1 c Set.univ (grid1.coords t) (iblk1 V c 0 t) (iblk1 V c 1 t) (iblk1 V c 2 t) (iblk1 V c 3 t) (iblk1 V c 4 t) (iblk1 V c 5 t)
  iframe H0 H1 H2 H3 H4 H5
  isplitl [H6]; · iexists _; iexact H6
  iintro ⟨⟨H0, H1, H2, H3, H4, H5⟩, H6⟩; iframe

end Cert.Kernel.Seg

end
-- ==== Proof.K.Layer2.lean ====
import proofs.«415147_j27384711479321_2_alg».proof.Proof.K.Bodies
import proofs.«415147_j27384711479321_2_alg».proof.Proof.Gen.Kernel.Launch
import proofs.«415147_j27384711479321_2_alg».proof.Proof.Gen.Kernel.Skeleton
import proofs.«415147_j27384711479321_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Each load reads its buffer's contents at its rectangle; the one store covers the output block.
set_option maxHeartbeats 1000000 in
theorem sound_kernel2 (c : Dev nD) (E : Set ℕ) (i : grid2.Coords)
    {m0 m1 : Memref sig .tc .vmem S16x2048 .f32} {m2 m3 : Memref sig .tc .vmem S3x256x2048 .f32} {m4 m5 : Memref sig .tc .vmem S3x256 .f32} {m6 : Memref sig .tc .vmem S16x256 .f32}
    {h0 : m0.IsWhole} {h1 : m1.IsWhole} {h2 : m2.IsWhole} {h3 : m3.IsWhole} {h4 : m4.IsWhole} {h5 : m5.IsWhole} {h6 : m6.IsWhole}
    (x0 x1 : Vec F S16x2048 .f32) (x2 x3 : Vec F S3x256x2048 .f32) (x4 x5 : Vec F S3x256 .f32) {K : PUnit → sProp 𝕄} :
    let P := iprop(owns c.tc m0 fullShare x0 ∗ owns c.tc m1 fullShare x1 ∗ owns c.tc m2 fullShare x2 ∗ owns c.tc m3 fullShare x3 ∗ owns c.tc m4 fullShare x4 ∗ owns c.tc m5 fullShare x5)
    iprop(P ∗ (∃ d, owns c.tc m6 fullShare d) ∗ (iprop(P ∗ owns c.tc m6 fullShare (out2_6 i x0 x1 x2 x3 x4 x5)) -∗ K ⟨⟩))
      ⊢ wp frame (wpE (defs₀ (F := F)) Variants.none c none) E (cc2__gru_tile_kernel i m0 h0 m1 h1 m2 h2 m3 h3 m4 h4 m5 h5 m6 h6) K := by
  dsimp only
  simp only [cc2__gru_tile_kernel_eq_skeleton]; unfold cc2__gru_tile_kernel_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%_, %f6, -, H6⟩, Hk⟩
  subst e0 e1 e2 e3 e4 e5
  sl_exec
  sl_step
  iapply Hk
  isplitr [H6]
  · isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    iexists f5; iframe H5; ipureintro; rfl
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (grid2.coords t) (iblk2 V c 0 t) (iblk2 V c 1 t) (iblk2 V c 2 t) (iblk2 V c 3 t) (iblk2 V c 4 t) (iblk2 V c 5 t)
  Φ _ := Pipeline.ΦA spec2 c
  q _ := fullShare
  owed _ := 0

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) := by
  refine ⟨?_, ?_, ?_, ?_, ?_, ?_⟩ <;> exact (dat2 V c).before_in_eq_fetched _ rfl (fun _ => rfl) (fun _ _ _ => rfl) (fun _ => rfl) t

-- The body's triple at the point's blocks; what the body does not touch is framed.
theorem body_obligation2 (c : Dev nD) : BodyObligation (dat2 (F := F) V c) (defs₀ (F := F)) Variants.none () Set.univ := fun t => by
  rw [bigSep_W2, bigSep_W2]
  simp only [before2 V c t]
  dsimp only [dat2, Dat.owesAt, Dat.bound]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply sound_kernel2 c Set.univ (grid2.coords t) (iblk2 V c 0 t) (iblk2 V c 1 t) (iblk2 V c 2 t) (iblk2 V c 3 t) (iblk2 V c 4 t) (iblk2 V c 5 t)
  iframe H0 H1 H2 H3 H4 H5
  isplitl [H6]; · iexists _; iexact H6
  iintro ⟨⟨H0, H1, H2, H3, H4, H5⟩, H6⟩; iframe

end Cert.Kernel.Seg

end
-- ==== Proof.K.Project.lean ====
import proofs.«415147_j27384711479321_2_alg».proof.Proof.K.Bodies
import proofs.«415147_j27384711479321_2_alg».proof.Proof.Gen.Kernel.Launch
import proofs.«415147_j27384711479321_2_alg».proof.Proof.Gen.Kernel.Skeleton
import proofs.«415147_j27384711479321_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Each load reads its buffer's contents at its rectangle; the one store covers the output block.
set_option maxHeartbeats 1000000 in
theorem sound_kernel3 (c : Dev nD) (E : Set ℕ) (i : grid3.Coords)
    {m0 : Memref sig .tc .vmem S16x2048 .f32} {m1 : Memref sig .tc .vmem S1280x2048 .f32} {m2 : Memref sig .tc .vmem S1x1280 .f32} {m3 : Memref sig .tc .vmem S16x1280 .f32}
    {h0 : m0.IsWhole} {h1 : m1.IsWhole} {h2 : m2.IsWhole} {h3 : m3.IsWhole}
    (x0 : Vec F S16x2048 .f32) (x1 : Vec F S1280x2048 .f32) (x2 : Vec F S1x1280 .f32) {K : PUnit → sProp 𝕄} :
    let P := iprop(owns c.tc m0 fullShare x0 ∗ owns c.tc m1 fullShare x1 ∗ owns c.tc m2 fullShare x2)
    iprop(P ∗ (∃ d, owns c.tc m3 fullShare d) ∗ (iprop(P ∗ owns c.tc m3 fullShare (out3_3 x0 x1 x2)) -∗ K ⟨⟩))
      ⊢ wp frame (wpE (defs₀ (F := F)) Variants.none c none) E (cc3__out_proj_tile_kernel i m0 h0 m1 h1 m2 h2 m3 h3) K := by
  dsimp only
  simp only [cc3__out_proj_tile_kernel_eq_skeleton]; unfold cc3__out_proj_tile_kernel_skel
  unfold owns
  iintro ⟨⟨⟨%f0, %e0, H0⟩, ⟨%f1, %e1, H1⟩, ⟨%f2, %e2, H2⟩⟩, ⟨%_, %f3, -, H3⟩, Hk⟩
  subst e0 e1 e2
  sl_exec
  sl_step
  iapply Hk
  isplitr [H3]
  · isplitl [H0]; · iexists f0; iframe H0; ipureintro; rfl
    isplitl [H1]; · iexists f1; iframe H1; ipureintro; rfl
    iexists f2; iframe H2; ipureintro; rfl
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) := by
  refine ⟨?_, ?_, ?_⟩ <;> exact (dat3 V c).before_in_eq_fetched _ rfl (fun _ => rfl) (fun _ _ _ => rfl) (fun _ => rfl) t

-- The body's triple at the point's blocks; what the body does not touch is framed.
theorem body_obligation3 (c : Dev nD) : BodyObligation (dat3 (F := F) V c) (defs₀ (F := F)) Variants.none () Set.univ := fun t => by
  rw [bigSep_W3, bigSep_W3]
  simp only [before3 V c t]
  dsimp only [dat3, Dat.owesAt, Dat.bound]
  sl_whnfR [defs₀, Defs.onTc]
  iintro ⟨HΦ, Ho, ⟨%_, H0⟩, ⟨%_, H1⟩, ⟨%_, H2⟩, ⟨%_, H3⟩⟩
  iapply sound_kernel3 c Set.univ _ (iblk3 V c 0 t) (iblk3 V c 1 t) (iblk3 V c 2 t)
  iframe H0 H1 H2
  isplitl [H3]; · iexists _; iexact H3
  iintro ⟨⟨H0, H1, H2⟩, H3⟩; iframe

end Cert.Kernel.Seg

end
-- ==== Proof.K.MainRun.lean ====
import proofs.«415147_j27384711479321_2_alg».proof.Proof.K.Layer0
import proofs.«415147_j27384711479321_2_alg».proof.Proof.K.Layer1
import proofs.«415147_j27384711479321_2_alg».proof.Proof.K.Layer2
import proofs.«415147_j27384711479321_2_alg».proof.Proof.K.Project
import proofs.«415147_j27384711479321_2_alg».proof.Proof.K.RunCond

set_option maxRecDepth 16384

noncomputable section

namespace Cert.Kernel.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev Va0 : (c : Dev nD) → (b : Ref sig .tc) → Buf (Elt F) ((c : Thread nD τ).loc b) := fun c b => V4 m c b
def x5 (c : Dev nD) : Buf (Elt F) ((c : Thread nD τ).loc main_v9) := (dat0 (Va0 m) c).arrAt 6 cfg0.N
def U5 (c : Dev nD) : Valuation τ sig (Elt F) := Function.update (V4 m c) main_v9 (x5 m c)

abbrev Wa1 (c : Dev nD) : Valuation τ sig (Elt F) := StableHlo.after hostOps1 (U5 m c)
abbrev Va1 : (c : Dev nD) → (b : Ref sig .tc) → Buf (Elt F) ((c : Thread nD τ).loc b) := fun c b => Wa1 m c b
def x7 (c : Dev nD) : Buf (Elt F) ((c : Thread nD τ).loc main_v16) := (dat1 (Va1 m) c).arrAt 6 cfg1.N
def U7 (c : Dev nD) : Valuation τ sig (Elt F) := Function.update (Wa1 m c) main_v16 (x7 m c)

abbrev Wa2 (c : Dev nD) : Valuation τ sig (Elt F) := StableHlo.after hostOps2 (U7 m c)
abbrev Va2 : (c : Dev nD) → (b : Ref sig .tc) → Buf (Elt F) ((c : Thread nD τ).loc b) := fun c b => Wa2 m c b
def x9 (c : Dev nD) : Buf (Elt F) ((c : Thread nD τ).loc main_v23) := (dat2 (Va2 m) c).arrAt 6 cfg2.N
def U9 (c : Dev nD) : Valuation τ sig (Elt F) := Function.update (Wa2 m c) main_v23 (x9 m c)

abbrev Wa3 (c : Dev nD) : Valuation τ sig (Elt F) := StableHlo.after hostOps3 (U9 m c)
abbrev Va3 : (c : Dev nD) → (b : Ref sig .tc) → Buf (Elt F) ((c : Thread nD τ).loc b) := fun c b => Wa3 m c b
def x11 (c : Dev nD) : Buf (Elt F) ((c : Thread nD τ).loc main_v29) := (dat3 (Va3 m) c).arrAt 3 cfg3.N
def U11 (c : Dev nD) : Valuation τ sig (Elt F) := Function.update (Wa3 m c) main_v29 (x11 m c)

def outs : Outs (F := F) := fun J r c =>
  if J = 5 then U5 m c r else if J = 7 then U7 m c r else if J = 9 then U9 m c r else if J = 11 then U11 m c r else V0 m c r

theorem outs_5 (c : Dev nD) : outs m 5 main_v9 c = x5 m c := by
  unfold outs; rw [if_pos rfl]; exact Function.update_self (Proc.devRef .tc main_v9 : DevRef τ sig) (x5 m c) (V4 m c)
theorem outs_7 (c : Dev nD) : outs m 7 main_v16 c = x7 m c := by
  unfold outs; rw [if_neg (by decide), if_pos rfl]; exact Function.update_self (Proc.devRef .tc main_v16 : DevRef τ sig) (x7 m c) (Wa1 m c)
theorem outs_9 (c : Dev nD) : outs m 9 main_v23 c = x9 m c := by
  unfold outs; rw [if_neg (by decide), if_neg (by decide), if_pos rfl]; exact Function.update_self (Proc.devRef .tc main_v23 : DevRef τ sig) (x9 m c) (Wa2 m c)
theorem outs_11 (c : Dev nD) : outs m 11 main_v29 c = x11 m c := by
  unfold outs; rw [if_neg (by decide), if_neg (by decide), if_neg (by decide), if_pos rfl]; exact Function.update_self (Proc.devRef .tc main_v29 : DevRef τ sig) (x11 m c) (Wa3 m c)

theorem V5_eq (c : Dev nD) : V5 m (outs m) c = U5 m c := by rw [V5, outs_5]; rfl
theorem V6_eq (c : Dev nD) : V6 m (outs m) c = Wa1 m c := by rw [V6, V5_eq]
theorem V7_eq (c : Dev nD) : V7 m (outs m) c = U7 m c := by rw [V7, outs_7, V6_eq]; rfl
theorem V8_eq (c : Dev nD) : V8 m (outs m) c = Wa2 m c := by rw [V8, V7_eq]
theorem V9_eq (c : Dev nD) : V9 m (outs m) c = U9 m c := by rw [V9, outs_9, V8_eq]; rfl
theorem V10_eq (c : Dev nD) : V10 m (outs m) c = Wa3 m c := by rw [V10, V9_eq]
theorem V11_eq (c : Dev nD) : V11 m (outs m) c = U11 m c := by rw [V11, outs_11, V10_eq]; rfl

def pdats : (p : Fin 4) → (c : Dev nD) → Dat τ (Elt F) Unit ℕ (UR sig nD τ) ℕ (cfgs p) c
  | ⟨0, _⟩ => fun c => dat0 (Va0 m) c
  | ⟨1, _⟩ => fun c => dat1 (Va1 m) c
  | ⟨2, _⟩ => fun c => dat2 (Va2 m) c
  | ⟨3, _⟩ => fun c => dat3 (Va3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- Updating at array `o`'s reference changes no other array: the arrays' references are distinct. -/
theorem arrAt_update {cfg : Cfg sig Λ₀} {c : Dev nD} (D : Dat τ (Elt F) Unit ℕ (UR sig nD τ) ℕ cfg c) (W : Valuation τ sig (Elt F))
    (o : Fin cfg.W) (hA : ∀ w, D.A w = W (Proc.devRef .tc (Pipeline.arrRef cfg.spec w)))
    (hin : ∀ w, w ≠ o → (cfg.win w).isOut = false) (hinj : Function.Injective (Pipeline.arrRef cfg.spec)) (w : Fin cfg.W) :
    D.arrAt w cfg.N = Function.update W (Proc.devRef .tc (Pipeline.arrRef cfg.spec o)) (D.arrAt o cfg.N)
      (Proc.devRef .tc (Pipeline.arrRef cfg.spec w)) := by
  by_cases h : w = o
  · subst h; exact (Function.update_self (Proc.devRef .tc _ : DevRef τ sig) _ W).symm
  · exact (D.arrAt_in w (hin w h) _).trans
      ((hA w).trans (Function.update_of_ne (StableHlo.devRef_ne_of_ne fun e => h (hinj e)) _ _).symm)

set_option backward.isDefEq.respectTransparency.types false in
/-- One record for the four regions, which differ in the index, the entry contents `W` and the output array `o`. -/
def regOf (p : Fin 4) (lf : Pipeline.LaunchFacts (nD := nD) (τ := τ) cfgs p) (W : Dev nD → Valuation τ sig (Elt F)) (o : Fin (cfgs p).W)
    (hb : ∀ c, BodyObligation (pdats m p c) (defs₀ (F := F)) 𝒱₀ () Set.univ)
    (hA : ∀ c w, (pdats m p c).A w = W c (Proc.devRef .tc (Pipeline.arrRef (cfgs p).spec w)) := by exact fun _ _ => rfl)
    (hΦ : ∀ c t, (pdats m p c).Φ t = Pipeline.ΦA (cfgs p).spec c := by exact fun _ _ => rfl)
    (hq : ∀ c w, (pdats m p c).q w = fullShare := by exact fun _ _ => rfl) (h0 : ∀ c t, (pdats m p c).owed t = 0 := by exact fun _ _ => rfl)
    (hrec : ∀ c x, x ∈ (pdats m p c).recorded 0 := by exact fun _ _ => trivial)
    (hin : ∀ w, w ≠ o → ((cfgs p).win w).isOut = false := by decide) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig)
    (Function.update (W c) (Proc.devRef .tc (Pipeline.arrRef (cfgs p).spec o)) ((pdats m p c).arrAt o (cfgs p).N)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0]
      icases HO with ⟨%W, HO⟩; iexists W; isplitr; · ipureintro; exact fun _ _ => Or.inl (hrec c _)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => W c b)
      (fun b => Function.update (W c) (Proc.devRef .tc (Pipeline.arrRef (cfgs p).spec o)) ((pdats m p c).arrAt o (cfgs p).N) b)
      ((pdats m p c).arrAt · (cfgs p).N) (arrAt_update _ _ o (hA c) hin lf.win.arr_inj)
      fun b hb => Function.update_of_ne (StableHlo.devRef_ne_of_ne fun e => hb (Finset.mem_image.mpr ⟨o, Finset.mem_univ _, e.symm⟩)) _ _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) :=
  let u := initOf (Pipeline.cells cfgs cellOf_inj) (Pipeline.launchToks cfgs cellOf_inj)
  run_cond m emb₁ () 𝒱₀ L lv (fun _ _ => rfl) ρ (outs m) (pdats m) 0 (fun _ => iprop(emp)) u
    (by
      iintro Hu; imodintro
      isplitl [Hu]
      · iapply (show (ownU u : sProp 𝕄) ⊢ BI.own (emb₁ u) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (regOf m 0 launch0 (V4 m) (6 : Fin 7) (body_obligation0 (Va0 m)))
      (fun c => .rfl) (fun c => by rw [V5_eq]; exact .rfl)
    (regOf m 1 launch1 (Wa1 m) (6 : Fin 7) (body_obligation1 (Va1 m)))
      (fun c => by rw [V6_eq]; exact .rfl) (fun c => by rw [V7_eq]; exact .rfl)
    (regOf m 2 launch2 (Wa2 m) (6 : Fin 7) (body_obligation2 (Va2 m)))
      (fun c => by rw [V8_eq]; exact .rfl) (fun c => by rw [V9_eq]; exact .rfl)
    (regOf m 3 launch3 (Wa3 m) (3 : Fin 4) (body_obligation3 (Va3 m)))
      (fun c => by rw [V10_eq]; exact .rfl) (fun c => by rw [V11_eq]; exact .rfl)

end Cert.Kernel.Seg

end
-- ==== Proof.K.FrameOf.lean ====
import proofs.«415147_j27384711479321_2_alg».proof.Proof.K.MainRun

set_option maxRecDepth 16384

noncomputable section

namespace Cert.Kernel.Seg

open Idealize.ShloMosaic Idealize.ShloMosaic.TcCoe Idealize.SL.Sem
open Cert.Kernel Cert.Kernel.Gen

variable {F : FTy → Type} [FloatOps F]

variable (m : (ℓ : Loc nD τ sig) → Buf (Elt F) ℓ)

/-- A TensorCore reference that is not scoped lies in the set the run's conclusion ranges over. -/
theorem read_uc {Q : DevRef τ sig → Prop} (h : ∀ b ∈ Pipeline.ucRefs τ sig, Q b) (b : Ref sig .tc)
    (hb : ¬ (Proc.devRef .tc b : DevRef τ sig).isScoped) : Q (Proc.devRef .tc b) :=
  h _ (Finset.mem_filter.mpr ⟨StableHlo.devRef_mem_tcRefs b, hb⟩)

/-- Read off `run` reference by reference; an argument's last contents are its launch contents. -/
theorem run_results (ρ : Dev nD → PrngReg) :
    θ_run defs (onTc (τ := τ) (main (F := F))) ⟨m, fun _ => 0, ρ⟩ (fun r => ∀ c : Dev nD,
      r.2.mem ((c.tc : Thread nD τ).loc main_v30) = V12 m (outs m) c main_v30
      ∧ r.2.mem ((c.tc : Thread nD τ).loc main_v27) = V12 m (outs m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    have a := read_uc (h c)
    ⟨a main_v30 (by decide), a main_v27 (by decide),
      (a main_arg0 (by decide)).trans (V12_main_arg0 m (outs m) c),
      (a main_arg1 (by decide)).trans (V12_main_arg1 m (outs m) c),
      (a main_arg2 (by decide)).trans (V12_main_arg2 m (outs m) c),
      (a main_arg3 (by decide)).trans (V12_main_arg3 m (outs m) c),
      (a main_arg4 (by decide)).trans (V12_main_arg4 m (outs m) c),
      (a main_arg5 (by decide)).trans (V12_main_arg5 m (outs m) c),
      (a main_arg6 (by decide)).trans (V12_main_arg6 m (outs m) c),
      (a main_arg7 (by decide)).trans (V12_main_arg7 m (outs m) c),
      (a main_arg8 (by decide)).trans (V12_main_arg8 m (outs m) c),
      (a main_arg9 (by decide)).trans (V12_main_arg9 m (outs m) c),
      (a main_arg10 (by decide)).trans (V12_main_arg10 m (outs m) c),
      (a main_arg11 (by decide)).trans (V12_main_arg11 m (outs m) c),
      (a main_arg12 (by decide)).trans (V12_main_arg12 m (outs m) c),
      (a main_arg13 (by decide)).trans (V12_main_arg13 m (outs m) c),
      (a main_arg14 (by decide)).trans (V12_main_arg14 m (outs m) c),
      (a main_arg15 (by decide)).trans (V12_main_arg15 m (outs m) c),
      (a main_arg16 (by decide)).trans (V12_main_arg16 m (outs m) c)⟩) (run m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2.2) (run_results m ρ)

end Cert.Kernel.Seg

end
-- ==== Proof.KI.Bodies.lean ====
import proofs.«415147_j27384711479321_2_alg».proof.Proof.Gen.KernelIdeal.Skeleton
import Idealize.ShloMosaic.Lib.Pipeline.FrameBody
import Idealize.ShloMosaic.Lib.Pipeline.Kit

set_option maxRecDepth 16384

noncomputable section

namespace Cert.KernelIdeal.Seg

open Idealize.ShloMosaic Idealize.ShloMosaic.TcCoe Idealize.SL.Sem
open Cert.KernelIdeal Cert.KernelIdeal.Gen

variable {F : FTy → Type} [FloatOps F]

abbrev r0_x : Rect S16x128 := Rect.unit (s := S16x128) ![0, 0] S16x128.size inb_S16x128_S16x128_0_0
abbrev r0_h : Rect S16x2048 := Rect.unit (s := S16x2048) ![0, 0] S16x2048.size inb_S16x2048_S16x2048_0_0
abbrev r0_hcol (i : grid0.Coords) : Rect S16x2048 := Rect.unit (s := S16x2048) (k0_off1 i) S16x256.size (k0_off1_inb i)
abbrev r0_wi0 : Rect S3x256x128 := Rect.unit (s := S3x256x128) ![0, 0, 0] S1x256x128.size inb_S3x256x128_S1x256x128_0_0_0
abbrev r0_wi1 : Rect S3x256x128 := Rect.unit (s := S3x256x128) ![1, 0, 0] S1x256x128.size inb_S3x256x128_S1x256x128_1_0_0
abbrev r0_wi2 : Rect S3x256x128 := Rect.unit (s := S3x256x128) ![2, 0, 0] S1x256x128.size inb_S3x256x128_S1x256x128_2_0_0
abbrev r0_wh0 : Rect S3x256x2048 := Rect.unit (s := S3x256x2048) ![0, 0, 0] S1x256x2048.size inb_S3x256x2048_S1x256x2048_0_0_0
abbrev r0_wh1 : Rect S3x256x2048 := Rect.unit (s := S3x256x2048) ![1, 0, 0] S1x256x2048.size inb_S3x256x2048_S1x256x2048_1_0_0
abbrev r0_wh2 : Rect S3x256x2048 := Rect.unit (s := S3x256x2048) ![2, 0, 0] S1x256x2048.size inb_S3x256x2048_S1x256x2048_2_0_0
abbrev r0_b0 : Rect S3x256 := Rect.unit (s := S3x256) ![0, 0] S1x256.size inb_S3x256_S1x256_0_0
abbrev r0_b1 : Rect S3x256 := Rect.unit (s := S3x256) ![1, 0] S1x256.size inb_S3x256_S1x256_1_0
abbrev r0_b2 : Rect S3x256 := Rect.unit (s := S3x256) ![2, 0] S1x256.size inb_S3x256_S1x256_2_0
abbrev r0_out : Rect S16x256 := Rect.unit (s := S16x256) ![0, 0] S16x256.size inb_S16x256_S16x256_0_0

def newTile0 (i : grid0.Coords) (x0 : Vec F S16x128 .f32) (x1 : Vec F S16x2048 .f32) (x2 : Vec F S3x256x128 .f32)
    (x3 : Vec F S3x256x2048 .f32) (x4 x5 : Vec F S3x256 .f32) : FVec F S16x256 .f32 :=
  k0_pay1
    (k0_pay13 (k0_pay2 (View.ld x0 r0_x)) (k0_pay3 (View.ld x1 r0_h))
      (k0_pay5 (View.ld x2 r0_wi0)) (k0_pay6 (View.ld x2 r0_wi1)) (k0_pay7 (View.ld x2 r0_wi2))
      (k0_pay8 (View.ld x3 r0_wh0)) (k0_pay9 (View.ld x3 r0_wh1)) (k0_pay10 (View.ld x3 r0_wh2))
      (k0_pay11 (View.ld x4 r0_b0)) (View.ld x4 r0_b1) (View.ld x4 r0_b2)
      (View.ld x5 r0_b0) (View.ld x5 r0_b1) (View.ld x5 r0_b2))
    (k0_pay14 (k0_pay2 (View.ld x0 r0_x)) (k0_pay3 (View.ld x1 r0_h)) (k0_pay4 (View.ld x1 (r0_hcol i)))
      (k0_pay6 (View.ld x2 r0_wi1)) (k0_pay9 (View.ld x3 r0_wh1)) (View.ld x4 r0_b1) (View.ld x5 r0_b1))

def out0_6 (i : grid0.Coords) (x0 : Vec F S16x128 .f32) (x1 : Vec F S16x2048 .f32) (x2 : Vec F S3x256x128 .f32)
    (x3 : Vec F S3x256x2048 .f32) (x4 x5 : Vec F S3x256 .f32) : Vec F S16x256 .f32 :=
  View.canon [⟨r0_out, newTile0 i x0 x1 x2 x3 x4 x5⟩]

theorem cover0_6 (p0 : Vec F S16x256 .f32) (y : S16x256.Idx) :
    ∃ pc ∈ ([⟨r0_out, p0⟩] : List (View.Piece (Elt F) S16x256 .f32)), y ∈ pc.1.set :=
  View.cover_of_tiled [⟨r0_out, p0⟩] S16x256.size (by rfl) y

abbrev r1_hcol (i : grid1.Coords) : Rect S16x2048 := Rect.unit (s := S16x2048) (k1_off1 i) S16x256.size (k1_off1_inb i)
abbrev r1_out := r0_out

def newTile1 (i : grid1.Coords) (x0 : Vec F S16x2048 .f32) (x1 : Vec F S16x2048 .f32) (x2 : Vec F S3x256x2048 .f32)
    (x3 : Vec F S3x256x2048 .f32) (x4 x5 : Vec F S3x256 .f32) : FVec F S16x256 .f32 :=
  k1_pay1
    (k1_pay13 (k1_pay2 (View.ld x0 r0_h)) (k1_pay3 (View.ld x1 r0_h))
      (k1_pay5 (View.ld x2 r0_wh0)) (k1_pay6 (View.ld x2 r0_wh1)) (k1_pay7 (View.ld x2 r0_wh2))
      (k1_pay8 (View.ld x3 r0_wh0)) (k1_pay9 (View.ld x3 r0_wh1)) (k1_pay10 (View.ld x3 r0_wh2))
      (k1_pay11 (View.ld x4 r0_b0)) (View.ld x4 r0_b1) (View.ld x4 r0_b2)
      (View.ld x5 r0_b0) (View.ld x5 r0_b1) (View.ld x5 r0_b2))
    (k1_pay14 (k1_pay2 (View.ld x0 r0_h)) (k1_pay3 (View.ld x1 r0_h)) (k1_pay4 (View.ld x1 (r1_hcol i)))
      (k1_pay6 (View.ld x2 r0_wh1)) (k1_pay9 (View.ld x3 r0_wh1)) (View.ld x4 r0_b1) (View.ld x5 r0_b1))

def out1_6 (i : grid1.Coords) (x0 : Vec F S16x2048 .f32) (x1 : Vec F S16x2048 .f32) (x2 : Vec F S3x256x2048 .f32)
    (x3 : Vec F S3x256x2048 .f32) (x4 x5 : Vec F S3x256 .f32) : Vec F S16x256 .f32 :=
  View.canon [⟨r1_out, newTile1 i x0 x1 x2 x3 x4 x5⟩]

theorem cover1_6 (p0 : Vec F S16x256 .f32) (y : S16x256.Idx) :
    ∃ pc ∈ ([⟨r1_out, p0⟩] : List (View.Piece (Elt F) S16x256 .f32)), y ∈ pc.1.set :=
  cover0_6 p0 y

abbrev r2_hcol (i : grid2.Coords) : Rect S16x2048 := Rect.unit (s := S16x2048) (k2_off1 i) S16x256.size (k2_off1_inb i)
abbrev r2_out := r0_out

def newTile2 (i : grid2.Coords) (x0 : Vec F S16x2048 .f32) (x1 : Vec F S16x2048 .f32) (x2 : Vec F S3x256x2048 .f32)
    (x3 : Vec F S3x256x2048 .f32) (x4 x5 : Vec F S3x256 .f32) : FVec F S16x256 .f32 :=
  k2_pay1
    (k2_pay13 (k2_pay2 (View.ld x0 r0_h)) (k2_pay3 (View.ld x1 r0_h))
      (k2_pay5 (View.ld x2 r0_wh0)) (k2_pay6 (View.ld x2 r0_wh1)) (k2_pay7 (View.ld x2 r0_wh2))
      (k2_pay8 (View.ld x3 r0_wh0)) (k2_pay9 (View.ld x3 r0_wh1)) (k2_pay10 (View.ld x3 r0_wh2))
      (k2_pay11 (View.ld x4 r0_b0)) (View.ld x4 r0_b1) (View.ld x4 r0_b2)
      (View.ld x5 r0_b0) (View.ld x5 r0_b1) (View.ld x5 r0_b2))
    (k2_pay14 (k2_pay2 (View.ld x0 r0_h)) (k2_pay3 (View.ld x1 r0_h)) (k2_pay4 (View.ld x1 (r2_hcol i)))
      (k2_pay6 (View.ld x2 r0_wh1)) (k2_pay9 (View.ld x3 r0_wh1)) (View.ld x4 r0_b1) (View.ld x5 r0_b1))

def out2_6 (i : grid2.Coords) (x0 : Vec F S16x2048 .f32) (x1 : Vec F S16x2048 .f32) (x2 : Vec F S3x256x2048 .f32)
    (x3 : Vec F S3x256x2048 .f32) (x4 x5 : Vec F S3x256 .f32) : Vec F S16x256 .f32 :=
  View.canon [⟨r2_out, newTile2 i x0 x1 x2 x3 x4 x5⟩]

theorem cover2_6 (p0 : Vec F S16x256 .f32) (y : S16x256.Idx) :
    ∃ pc ∈ ([⟨r2_out, p0⟩] : List (View.Piece (Elt F) S16x256 .f32)), y ∈ pc.1.set :=
  cover0_6 p0 y

abbrev r3_w : Rect S1280x2048 := Rect.unit (s := S1280x2048) ![0, 0] S1280x2048.size inb_S1280x2048_S1280x2048_0_0
abbrev r3_b : Rect S1x1280 := Rect.unit (s := S1x1280) ![0, 0] S1x1280.size inb_S1x1280_S1x1280_0_0
abbrev r3_out : Rect S16x1280 := Rect.unit (s := S16x1280) ![0, 0] S16x1280.size inb_S16x1280_S16x1280_0_0

def logitTile (x0 : Vec F S16x2048 .f32) (x1 : Vec F S1280x2048 .f32) (x2 : Vec F S1x1280 .f32) : FVec F S16x1280 .f32 :=
  k3_pay1 (View.ld x0 r0_h) (View.ld x1 r3_w) (View.ld x2 r3_b)

def out3_3 (x0 : Vec F S16x2048 .f32) (x1 : Vec F S1280x2048 .f32) (x2 : Vec F S1x1280 .f32) : Vec F S16x1280 .f32 :=
  View.canon [⟨r3_out, logitTile x0 x1 x2⟩]

theorem cover3_3 (p0 : Vec F S16x1280 .f32) (y : S16x1280.Idx) :
    ∃ pc ∈ ([⟨r3_out, p0⟩] : List (View.Piece (Elt F) S16x1280 .f32)), y ∈ pc.1.set :=
  View.cover_of_tiled [⟨r3_out, p0⟩] S16x1280.size (by rfl) y

section Blocks

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Blocks

end Cert.KernelIdeal.Seg

end
-- ==== Proof.KI.Layer0.lean ====
import proofs.«415147_j27384711479321_2_alg».proof.Proof.KI.Bodies
import proofs.«415147_j27384711479321_2_alg».proof.Proof.Gen.KernelIdeal.Launch
import proofs.«415147_j27384711479321_2_alg».proof.Proof.Gen.KernelIdeal.Skeleton
import proofs.«415147_j27384711479321_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Each load reads its buffer's contents at its rectangle; the one store covers the output block.
set_option maxHeartbeats 4000000 in
theorem sound_kernel0 (c : Dev nD) (E : Set ℕ) (i : grid0.Coords)
    {m0 : Memref sig .tc .vmem S16x128 .f32} {m1 : Memref sig .tc .vmem S16x2048 .f32} {m2 : Memref sig .tc .vmem S3x256x128 .f32} {m3 : Memref sig .tc .vmem S3x256x2048 .f32} {m4 m5 : Memref sig .tc .vmem S3x256 .f32} {m6 : Memref sig .tc .vmem S16x256 .f32}
    {h0 : m0.IsWhole} {h1 : m1.IsWhole} {h2 : m2.IsWhole} {h3 : m3.IsWhole} {h4 : m4.IsWhole} {h5 : m5.IsWhole} {h6 : m6.IsWhole}
    (x0 : Vec F S16x128 .f32) (x1 : Vec F S16x2048 .f32) (x2 : Vec F S3x256x128 .f32) (x3 : Vec F S3x256x2048 .f32) (x4 x5 : Vec F S3x256 .f32) {K : PUnit → sProp 𝕄} :
    let P := iprop(owns c.tc m0 fullShare x0 ∗ owns c.tc m1 fullShare x1 ∗ owns c.tc m2 fullShare x2 ∗ owns c.tc m3 fullShare x3 ∗ owns c.tc m4 fullShare x4 ∗ owns c.tc m5 fullShare x5)
    iprop(P ∗ (∃ d, owns c.tc m6 fullShare d) ∗ (iprop(P ∗ owns c.tc m6 fullShare (out0_6 i x0 x1 x2 x3 x4 x5)) -∗ K ⟨⟩))
      ⊢ wp frame (wpE (defs₀ (F := F)) Variants.none c none) E (cc0__gru_tile_kernel i m0 h0 m1 h1 m2 h2 m3 h3 m4 h4 m5 h5 m6 h6) K := by
  dsimp only
  simp only [cc0__gru_tile_kernel_eq_skeleton]; unfold cc0__gru_tile_kernel_skel
  simp only [k0_part1_eq_skeleton, k0_part2_eq_skeleton]; unfold k0_part1_skel k0_part2_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%_, %f6, -, H6⟩, Hk⟩
  subst e0 e1 e2 e3 e4 e5
  sl_exec
  sl_step
  iapply Hk
  isplitr [H6]
  · isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    iexists f5; iframe H5; ipureintro; rfl
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (grid0.coords t) (iblk0 V c 0 t) (iblk0 V c 1 t) (iblk0 V c 2 t) (iblk0 V c 3 t) (iblk0 V c 4 t) (iblk0 V c 5 t)
  Φ _ := Pipeline.ΦA spec0 c
  q _ := fullShare
  owed _ := 0

theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t) ∧ (∀ d, (dat0 V c).before 3 t d = iblk0 V c 3 t) ∧ (∀ d, (dat0 V c).before 4 t d = iblk0 V c 4 t) ∧ (∀ d, (dat0 V c).before 5 t d = iblk0 V c 5 t) := by
  refine ⟨?_, ?_, ?_, ?_, ?_, ?_⟩ <;> exact (dat0 V c).before_in_eq_fetched _ rfl (fun _ => rfl) (fun _ _ _ => rfl) (fun _ => rfl) t

-- The body's triple at the point's blocks; what the body does not touch is framed.
theorem body_obligation0 (c : Dev nD) : BodyObligation (dat0 (F := F) V c) (defs₀ (F := F)) Variants.none () Set.univ := fun t => by
  rw [bigSep_W0, bigSep_W0]
  simp only [before0 V c t]
  dsimp only [dat0, Dat.owesAt, Dat.bound]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply sound_kernel0 c Set.univ (grid0.coords t) (iblk0 V c 0 t) (iblk0 V c 1 t) (iblk0 V c 2 t) (iblk0 V c 3 t) (iblk0 V c 4 t) (iblk0 V c 5 t)
  iframe H0 H1 H2 H3 H4 H5
  isplitl [H6]; · iexists _; iexact H6
  iintro ⟨⟨H0, H1, H2, H3, H4, H5⟩, H6⟩; iframe

end Cert.KernelIdeal.Seg

end
-- ==== Proof.KI.Layer1.lean ====
import proofs.«415147_j27384711479321_2_alg».proof.Proof.KI.Bodies
import proofs.«415147_j27384711479321_2_alg».proof.Proof.Gen.KernelIdeal.Launch
import proofs.«415147_j27384711479321_2_alg».proof.Proof.Gen.KernelIdeal.Skeleton
import proofs.«415147_j27384711479321_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Each load reads its buffer's contents at its rectangle; the one store covers the output block.
set_option maxHeartbeats 1000000 in
theorem sound_kernel1 (c : Dev nD) (E : Set ℕ) (i : grid1.Coords)
    {m0 m1 : Memref sig .tc .vmem S16x2048 .f32} {m2 m3 : Memref sig .tc .vmem S3x256x2048 .f32} {m4 m5 : Memref sig .tc .vmem S3x256 .f32} {m6 : Memref sig .tc .vmem S16x256 .f32}
    {h0 : m0.IsWhole} {h1 : m1.IsWhole} {h2 : m2.IsWhole} {h3 : m3.IsWhole} {h4 : m4.IsWhole} {h5 : m5.IsWhole} {h6 : m6.IsWhole}
    (x0 x1 : Vec F S16x2048 .f32) (x2 x3 : Vec F S3x256x2048 .f32) (x4 x5 : Vec F S3x256 .f32) {K : PUnit → sProp 𝕄} :
    let P := iprop(owns c.tc m0 fullShare x0 ∗ owns c.tc m1 fullShare x1 ∗ owns c.tc m2 fullShare x2 ∗ owns c.tc m3 fullShare x3 ∗ owns c.tc m4 fullShare x4 ∗ owns c.tc m5 fullShare x5)
    iprop(P ∗ (∃ d, owns c.tc m6 fullShare d) ∗ (iprop(P ∗ owns c.tc m6 fullShare (out1_6 i x0 x1 x2 x3 x4 x5)) -∗ K ⟨⟩))
      ⊢ wp frame (wpE (defs₀ (F := F)) Variants.none c none) E (cc1__gru_tile_kernel i m0 h0 m1 h1 m2 h2 m3 h3 m4 h4 m5 h5 m6 h6) K := by
  dsimp only
  simp only [cc1__gru_tile_kernel_eq_skeleton]; unfold cc1__gru_tile_kernel_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%_, %f6, -, H6⟩, Hk⟩
  subst e0 e1 e2 e3 e4 e5
  sl_exec
  sl_step
  iapply Hk
  isplitr [H6]
  · isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    iexists f5; iframe H5; ipureintro; rfl
  iexists _; isplitr
  swap; · iexact H6
  ipureintro
  exact View.read_writes_eq_canon _ _ _ (cover1_6 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) := by
  refine ⟨?_, ?_, ?_, ?_, ?_, ?_⟩ <;> exact (dat1 V c).before_in_eq_fetched _ rfl (fun _ => rfl) (fun _ _ _ => rfl) (fun _ => rfl) t

-- The body's triple at the point's blocks; what the body does not touch is framed.
theorem body_obligation1 (c : Dev nD) : BodyObligation (dat1 (F := F) V c) (defs₀ (F := F)) Variants.none () Set.univ := fun t => by
  rw [bigSep_W1, bigSep_W1]
  simp only [before1 V c t]
  dsimp only [dat1, Dat.owesAt, Dat.bound]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply sound_kernel1 c Set.univ (grid1.coords t) (iblk1 V c 0 t) (iblk1 V c 1 t) (iblk1 V c 2 t) (iblk1 V c 3 t) (iblk1 V c 4 t) (iblk1 V c 5 t)
  iframe H0 H1 H2 H3 H4 H5
  isplitl [H6]; · iexists _; iexact H6
  iintro ⟨⟨H0, H1, H2, H3, H4, H5⟩, H6⟩; iframe

end Cert.KernelIdeal.Seg

end
-- ==== Proof.KI.Layer2.lean ====
import proofs.«415147_j27384711479321_2_alg».proof.Proof.KI.Bodies
import proofs.«415147_j27384711479321_2_alg».proof.Proof.Gen.KernelIdeal.Launch
import proofs.«415147_j27384711479321_2_alg».proof.Proof.Gen.KernelIdeal.Skeleton
import proofs.«415147_j27384711479321_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Each load reads its buffer's contents at its rectangle; the one store covers the output block.
set_option maxHeartbeats 1000000 in
theorem sound_kernel2 (c : Dev nD) (E : Set ℕ) (i : grid2.Coords)
    {m0 m1 : Memref sig .tc .vmem S16x2048 .f32} {m2 m3 : Memref sig .tc .vmem S3x256x2048 .f32} {m4 m5 : Memref sig .tc .vmem S3x256 .f32} {m6 : Memref sig .tc .vmem S16x256 .f32}
    {h0 : m0.IsWhole} {h1 : m1.IsWhole} {h2 : m2.IsWhole} {h3 : m3.IsWhole} {h4 : m4.IsWhole} {h5 : m5.IsWhole} {h6 : m6.IsWhole}
    (x0 x1 : Vec F S16x2048 .f32) (x2 x3 : Vec F S3x256x2048 .f32) (x4 x5 : Vec F S3x256 .f32) {K : PUnit → sProp 𝕄} :
    let P := iprop(owns c.tc m0 fullShare x0 ∗ owns c.tc m1 fullShare x1 ∗ owns c.tc m2 fullShare x2 ∗ owns c.tc m3 fullShare x3 ∗ owns c.tc m4 fullShare x4 ∗ owns c.tc m5 fullShare x5)
    iprop(P ∗ (∃ d, owns c.tc m6 fullShare d) ∗ (iprop(P ∗ owns c.tc m6 fullShare (out2_6 i x0 x1 x2 x3 x4 x5)) -∗ K ⟨⟩))
      ⊢ wp frame (wpE (defs₀ (F := F)) Variants.none c none) E (cc2__gru_tile_kernel i m0 h0 m1 h1 m2 h2 m3 h3 m4 h4 m5 h5 m6 h6) K := by
  dsimp only
  simp only [cc2__gru_tile_kernel_eq_skeleton]; unfold cc2__gru_tile_kernel_skel
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩⟩, ⟨%_, %f6, -, H6⟩, Hk⟩
  subst e0 e1 e2 e3 e4 e5
  sl_exec
  sl_step
  iapply Hk
  isplitr [H6]
  · isplitl [H0]; · iexists f0; iframe H0; ipureintro; rfl
    isplitl [H1]; · iexists f1; iframe H1; ipureintro; rfl
    isplitl [H2]; · iexists f2; iframe H2; ipureintro; rfl
    isplitl [H3]; · iexists f3; iframe H3; ipureintro; rfl
    isplitl [H4]; · iexists f4; iframe H4; ipureintro; rfl
    iexists f5; iframe H5; ipureintro; rfl
  iexists _; isplitr
  swap; · iexact H6
  ipureintro
  exact View.read_writes_eq_canon _ _ _ (cover2_6 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (grid2.coords t) (iblk2 V c 0 t) (iblk2 V c 1 t) (iblk2 V c 2 t) (iblk2 V c 3 t) (iblk2 V c 4 t) (iblk2 V c 5 t)
  Φ _ := Pipeline.ΦA spec2 c
  q _ := fullShare
  owed _ := 0

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t) ∧ (∀ d, (dat2 V c).before 3 t d = iblk2 V c 3 t) ∧ (∀ d, (dat2 V c).before 4 t d = iblk2 V c 4 t) ∧ (∀ d, (dat2 V c).before 5 t d = iblk2 V c 5 t) := by
  refine ⟨?_, ?_, ?_, ?_, ?_, ?_⟩ <;> exact (dat2 V c).before_in_eq_fetched _ rfl (fun _ => rfl) (fun _ _ _ => rfl) (fun _ => rfl) t

-- The body's triple at the point's blocks; what the body does not touch is framed.
theorem body_obligation2 (c : Dev nD) : BodyObligation (dat2 (F := F) V c) (defs₀ (F := F)) Variants.none () Set.univ := fun t => by
  rw [bigSep_W2, bigSep_W2]
  simp only [before2 V c t]
  dsimp only [dat2, Dat.owesAt, Dat.bound]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩⟩
  iapply sound_kernel2 c Set.univ (grid2.coords t) (iblk2 V c 0 t) (iblk2 V c 1 t) (iblk2 V c 2 t) (iblk2 V c 3 t) (iblk2 V c 4 t) (iblk2 V c 5 t)
  iframe H0 H1 H2 H3 H4 H5
  isplitl [H6]; · iexists _; iexact H6
  iintro ⟨⟨H0, H1, H2, H3, H4, H5⟩, H6⟩; iframe

end Cert.KernelIdeal.Seg

end
-- ==== Proof.KI.Project.lean ====
import proofs.«415147_j27384711479321_2_alg».proof.Proof.KI.Bodies
import proofs.«415147_j27384711479321_2_alg».proof.Proof.Gen.KernelIdeal.Launch
import proofs.«415147_j27384711479321_2_alg».proof.Proof.Gen.KernelIdeal.Skeleton
import proofs.«415147_j27384711479321_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Each load reads its buffer's contents at its rectangle; the one store covers the output block.
set_option maxHeartbeats 1000000 in
theorem sound_kernel3 (c : Dev nD) (E : Set ℕ) (i : grid3.Coords)
    {m0 : Memref sig .tc .vmem S16x2048 .f32} {m1 : Memref sig .tc .vmem S1280x2048 .f32} {m2 : Memref sig .tc .vmem S1x1280 .f32} {m3 : Memref sig .tc .vmem S16x1280 .f32}
    {h0 : m0.IsWhole} {h1 : m1.IsWhole} {h2 : m2.IsWhole} {h3 : m3.IsWhole}
    (x0 : Vec F S16x2048 .f32) (x1 : Vec F S1280x2048 .f32) (x2 : Vec F S1x1280 .f32) {K : PUnit → sProp 𝕄} :
    let P := iprop(owns c.tc m0 fullShare x0 ∗ owns c.tc m1 fullShare x1 ∗ owns c.tc m2 fullShare x2)
    iprop(P ∗ (∃ d, owns c.tc m3 fullShare d) ∗ (iprop(P ∗ owns c.tc m3 fullShare (out3_3 x0 x1 x2)) -∗ K ⟨⟩))
      ⊢ wp frame (wpE (defs₀ (F := F)) Variants.none c none) E (cc3__out_proj_tile_kernel i m0 h0 m1 h1 m2 h2 m3 h3) K := by
  dsimp only
  simp only [cc3__out_proj_tile_kernel_eq_skeleton]; unfold cc3__out_proj_tile_kernel_skel
  unfold owns
  iintro ⟨⟨⟨%f0, %e0, H0⟩, ⟨%f1, %e1, H1⟩, ⟨%f2, %e2, H2⟩⟩, ⟨%_, %f3, -, H3⟩, Hk⟩
  subst e0 e1 e2
  sl_exec
  sl_step
  iapply Hk
  isplitr [H3]
  · isplitl [H0]; · iexists f0; iframe H0; ipureintro; rfl
    isplitl [H1]; · iexists f1; iframe H1; ipureintro; rfl
    iexists f2; iframe H2; ipureintro; rfl
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t) := by
  refine ⟨?_, ?_, ?_⟩ <;> exact (dat3 V c).before_in_eq_fetched _ rfl (fun _ => rfl) (fun _ _ _ => rfl) (fun _ => rfl) t

-- The body's triple at the point's blocks; what the body does not touch is framed.
theorem body_obligation3 (c : Dev nD) : BodyObligation (dat3 (F := F) V c) (defs₀ (F := F)) Variants.none () Set.univ := fun t => by
  rw [bigSep_W3, bigSep_W3]
  simp only [before3 V c t]
  dsimp only [dat3, Dat.owesAt, Dat.bound]
  sl_whnfR [defs₀, Defs.onTc]
  iintro ⟨HΦ, Ho, ⟨%_, H0⟩, ⟨%_, H1⟩, ⟨%_, H2⟩, ⟨%_, H3⟩⟩
  iapply sound_kernel3 c Set.univ _ (iblk3 V c 0 t) (iblk3 V c 1 t) (iblk3 V c 2 t)
  iframe H0 H1 H2
  isplitl [H3]; · iexists _; iexact H3
  iintro ⟨⟨H0, H1, H2⟩, H3⟩; iframe

end Cert.KernelIdeal.Seg

end
-- ==== Proof.KI.MainRun.lean ====
import proofs.«415147_j27384711479321_2_alg».proof.Proof.KI.Layer0
import proofs.«415147_j27384711479321_2_alg».proof.Proof.KI.Layer1
import proofs.«415147_j27384711479321_2_alg».proof.Proof.KI.Layer2
import proofs.«415147_j27384711479321_2_alg».proof.Proof.KI.Project
import proofs.«415147_j27384711479321_2_alg».proof.Proof.KI.RunCond

set_option maxRecDepth 16384

noncomputable section

namespace Cert.KernelIdeal.Seg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev Va0 : (c : Dev nD) → (b : Ref sig .tc) → Buf (Elt F) ((c : Thread nD τ).loc b) := fun c b => V4 m c b
def x5 (c : Dev nD) : Buf (Elt F) ((c : Thread nD τ).loc main_v9) := (dat0 (Va0 m) c).arrAt 6 cfg0.N
def U5 (c : Dev nD) : Valuation τ sig (Elt F) := Function.update (V4 m c) main_v9 (x5 m c)

abbrev Wa1 (c : Dev nD) : Valuation τ sig (Elt F) := StableHlo.after hostOps1 (U5 m c)
abbrev Va1 : (c : Dev nD) → (b : Ref sig .tc) → Buf (Elt F) ((c : Thread nD τ).loc b) := fun c b => Wa1 m c b
def x7 (c : Dev nD) : Buf (Elt F) ((c : Thread nD τ).loc main_v16) := (dat1 (Va1 m) c).arrAt 6 cfg1.N
def U7 (c : Dev nD) : Valuation τ sig (Elt F) := Function.update (Wa1 m c) main_v16 (x7 m c)

abbrev Wa2 (c : Dev nD) : Valuation τ sig (Elt F) := StableHlo.after hostOps2 (U7 m c)
abbrev Va2 : (c : Dev nD) → (b : Ref sig .tc) → Buf (Elt F) ((c : Thread nD τ).loc b) := fun c b => Wa2 m c b
def x9 (c : Dev nD) : Buf (Elt F) ((c : Thread nD τ).loc main_v23) := (dat2 (Va2 m) c).arrAt 6 cfg2.N
def U9 (c : Dev nD) : Valuation τ sig (Elt F) := Function.update (Wa2 m c) main_v23 (x9 m c)

abbrev Wa3 (c : Dev nD) : Valuation τ sig (Elt F) := StableHlo.after hostOps3 (U9 m c)
abbrev Va3 : (c : Dev nD) → (b : Ref sig .tc) → Buf (Elt F) ((c : Thread nD τ).loc b) := fun c b => Wa3 m c b
def x11 (c : Dev nD) : Buf (Elt F) ((c : Thread nD τ).loc main_v29) := (dat3 (Va3 m) c).arrAt 3 cfg3.N
def U11 (c : Dev nD) : Valuation τ sig (Elt F) := Function.update (Wa3 m c) main_v29 (x11 m c)

def outs : Outs (F := F) := fun J r c =>
  if J = 5 then U5 m c r else if J = 7 then U7 m c r else if J = 9 then U9 m c r else if J = 11 then U11 m c r else V0 m c r

theorem outs_5 (c : Dev nD) : outs m 5 main_v9 c = x5 m c := by
  unfold outs; rw [if_pos rfl]; exact Function.update_self (Proc.devRef .tc main_v9 : DevRef τ sig) (x5 m c) (V4 m c)
theorem outs_7 (c : Dev nD) : outs m 7 main_v16 c = x7 m c := by
  unfold outs; rw [if_neg (by decide), if_pos rfl]; exact Function.update_self (Proc.devRef .tc main_v16 : DevRef τ sig) (x7 m c) (Wa1 m c)
theorem outs_9 (c : Dev nD) : outs m 9 main_v23 c = x9 m c := by
  unfold outs; rw [if_neg (by decide), if_neg (by decide), if_pos rfl]; exact Function.update_self (Proc.devRef .tc main_v23 : DevRef τ sig) (x9 m c) (Wa2 m c)
theorem outs_11 (c : Dev nD) : outs m 11 main_v29 c = x11 m c := by
  unfold outs; rw [if_neg (by decide), if_neg (by decide), if_neg (by decide), if_pos rfl]; exact Function.update_self (Proc.devRef .tc main_v29 : DevRef τ sig) (x11 m c) (Wa3 m c)

theorem V5_eq (c : Dev nD) : V5 m (outs m) c = U5 m c := by rw [V5, outs_5]; rfl
theorem V6_eq (c : Dev nD) : V6 m (outs m) c = Wa1 m c := by rw [V6, V5_eq]
theorem V7_eq (c : Dev nD) : V7 m (outs m) c = U7 m c := by rw [V7, outs_7, V6_eq]; rfl
theorem V8_eq (c : Dev nD) : V8 m (outs m) c = Wa2 m c := by rw [V8, V7_eq]
theorem V9_eq (c : Dev nD) : V9 m (outs m) c = U9 m c := by rw [V9, outs_9, V8_eq]; rfl
theorem V10_eq (c : Dev nD) : V10 m (outs m) c = Wa3 m c := by rw [V10, V9_eq]
theorem V11_eq (c : Dev nD) : V11 m (outs m) c = U11 m c := by rw [V11, outs_11, V10_eq]; rfl

def pdats : (p : Fin 4) → (c : Dev nD) → Dat τ (Elt F) Unit ℕ (UR sig nD τ) ℕ (cfgs p) c
  | ⟨0, _⟩ => fun c => dat0 (Va0 m) c
  | ⟨1, _⟩ => fun c => dat1 (Va1 m) c
  | ⟨2, _⟩ => fun c => dat2 (Va2 m) c
  | ⟨3, _⟩ => fun c => dat3 (Va3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- Updating at array `o`'s reference changes no other array: the arrays' references are distinct. -/
theorem arrAt_update {cfg : Cfg sig Λ₀} {c : Dev nD} (D : Dat τ (Elt F) Unit ℕ (UR sig nD τ) ℕ cfg c) (W : Valuation τ sig (Elt F))
    (o : Fin cfg.W) (hA : ∀ w, D.A w = W (Proc.devRef .tc (Pipeline.arrRef cfg.spec w)))
    (hin : ∀ w, w ≠ o → (cfg.win w).isOut = false) (hinj : Function.Injective (Pipeline.arrRef cfg.spec)) (w : Fin cfg.W) :
    D.arrAt w cfg.N = Function.update W (Proc.devRef .tc (Pipeline.arrRef cfg.spec o)) (D.arrAt o cfg.N)
      (Proc.devRef .tc (Pipeline.arrRef cfg.spec w)) := by
  by_cases h : w = o
  · subst h; exact (Function.update_self (Proc.devRef .tc _ : DevRef τ sig) _ W).symm
  · exact (D.arrAt_in w (hin w h) _).trans
      ((hA w).trans (Function.update_of_ne (StableHlo.devRef_ne_of_ne fun e => h (hinj e)) _ _).symm)

set_option backward.isDefEq.respectTransparency.types false in
/-- One record for the four regions, which differ in the index, the entry contents `W` and the output array `o`. -/
def regOf (p : Fin 4) (lf : Pipeline.LaunchFacts (nD := nD) (τ := τ) cfgs p) (W : Dev nD → Valuation τ sig (Elt F)) (o : Fin (cfgs p).W)
    (hb : ∀ c, BodyObligation (pdats m p c) (defs₀ (F := F)) 𝒱₀ () Set.univ)
    (hA : ∀ c w, (pdats m p c).A w = W c (Proc.devRef .tc (Pipeline.arrRef (cfgs p).spec w)) := by exact fun _ _ => rfl)
    (hΦ : ∀ c t, (pdats m p c).Φ t = Pipeline.ΦA (cfgs p).spec c := by exact fun _ _ => rfl)
    (hq : ∀ c w, (pdats m p c).q w = fullShare := by exact fun _ _ => rfl) (h0 : ∀ c t, (pdats m p c).owed t = 0 := by exact fun _ _ => rfl)
    (hrec : ∀ c x, x ∈ (pdats m p c).recorded 0 := by exact fun _ _ => trivial)
    (hin : ∀ w, w ≠ o → ((cfgs p).win w).isOut = false := by decide) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (W c) ∗ R c)
  post c := iprop(StableHlo.held (c : Thread nD τ) (Pipeline.ucRefs τ sig)
    (Function.update (W c) (Proc.devRef .tc (Pipeline.arrRef (cfgs p).spec o)) ((pdats m p c).arrAt o (cfgs p).N)) ∗ R c)
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have hsplit := Pipeline.arrays_of_unscopedBufs (p := p) (pcfgs (F := F)) adm (pdats m) lf.win lf.arr_whole c
      ((pdats m p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [h0]
      icases HO with ⟨%W, HO⟩; iexists W; isplitr; · ipureintro; exact fun _ _ => Or.inl (hrec c _)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (fun b => W c b)
      (fun b => Function.update (W c) (Proc.devRef .tc (Pipeline.arrRef (cfgs p).spec o)) ((pdats m p c).arrAt o (cfgs p).N) b)
      ((pdats m p c).arrAt · (cfgs p).N) (arrAt_update _ _ o (hA c) hin lf.win.arr_inj)
      fun b hb => Function.update_of_ne (StableHlo.devRef_ne_of_ne fun e => hb (Finset.mem_image.mpr ⟨o, Finset.mem_univ _, e.symm⟩)) _ _
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V12 m (outs m) c b) :=
  let u := initOf (Pipeline.cells cfgs cellOf_inj) (Pipeline.launchToks cfgs cellOf_inj)
  run_cond m emb₁ () 𝒱₀ L lv (fun _ _ => rfl) ρ (outs m) (pdats m) 0 (fun _ => iprop(emp)) u
    (by
      iintro Hu; imodintro
      isplitl [Hu]
      · iapply (show (ownU u : sProp 𝕄) ⊢ BI.own (emb₁ u) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (regOf m 0 launch0 (V4 m) (6 : Fin 7) (body_obligation0 (Va0 m)))
      (fun c => .rfl) (fun c => by rw [V5_eq]; exact .rfl)
    (regOf m 1 launch1 (Wa1 m) (6 : Fin 7) (body_obligation1 (Va1 m)))
      (fun c => by rw [V6_eq]; exact .rfl) (fun c => by rw [V7_eq]; exact .rfl)
    (regOf m 2 launch2 (Wa2 m) (6 : Fin 7) (body_obligation2 (Va2 m)))
      (fun c => by rw [V8_eq]; exact .rfl) (fun c => by rw [V9_eq]; exact .rfl)
    (regOf m 3 launch3 (Wa3 m) (3 : Fin 4) (body_obligation3 (Va3 m)))
      (fun c => by rw [V10_eq]; exact .rfl) (fun c => by rw [V11_eq]; exact .rfl)

end Cert.KernelIdeal.Seg

end
-- ==== Proof.KI.FrameOf.lean ====
import proofs.«415147_j27384711479321_2_alg».proof.Proof.KI.MainRun

set_option maxRecDepth 16384

noncomputable section

namespace Cert.KernelIdeal.Seg

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ)

/-- A TensorCore reference that is not scoped lies in the set the run's conclusion ranges over. -/
theorem read_uc {Q : DevRef τ sig → Prop} (h : ∀ b ∈ Pipeline.ucRefs τ sig, Q b) (b : Ref sig .tc)
    (hb : ¬ (Proc.devRef .tc b : DevRef τ sig).isScoped) : Q (Proc.devRef .tc b) :=
  h _ (Finset.mem_filter.mpr ⟨StableHlo.devRef_mem_tcRefs b, hb⟩)

/-- Read off `run` reference by reference; an argument's last contents are its launch contents. -/
theorem run_results (ρ : Dev nD → PrngReg) :
    θ_run defs (onTc (τ := τ) (main (F := F))) ⟨m, fun _ => 0, ρ⟩ (fun r => ∀ c : Dev nD,
      r.2.mem ((c.tc : Thread nD τ).loc main_v30) = V12 m (outs m) c main_v30
      ∧ r.2.mem ((c.tc : Thread nD τ).loc main_v27) = V12 m (outs m) c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    have a := read_uc (h c)
    ⟨a main_v30 (by decide), a main_v27 (by decide),
      (a main_arg0 (by decide)).trans (V12_main_arg0 m (outs m) c),
      (a main_arg1 (by decide)).trans (V12_main_arg1 m (outs m) c),
      (a main_arg2 (by decide)).trans (V12_main_arg2 m (outs m) c),
      (a main_arg3 (by decide)).trans (V12_main_arg3 m (outs m) c),
      (a main_arg4 (by decide)).trans (V12_main_arg4 m (outs m) c),
      (a main_arg5 (by decide)).trans (V12_main_arg5 m (outs m) c),
      (a main_arg6 (by decide)).trans (V12_main_arg6 m (outs m) c),
      (a main_arg7 (by decide)).trans (V12_main_arg7 m (outs m) c),
      (a main_arg8 (by decide)).trans (V12_main_arg8 m (outs m) c),
      (a main_arg9 (by decide)).trans (V12_main_arg9 m (outs m) c),
      (a main_arg10 (by decide)).trans (V12_main_arg10 m (outs m) c),
      (a main_arg11 (by decide)).trans (V12_main_arg11 m (outs m) c),
      (a main_arg12 (by decide)).trans (V12_main_arg12 m (outs m) c),
      (a main_arg13 (by decide)).trans (V12_main_arg13 m (outs m) c),
      (a main_arg14 (by decide)).trans (V12_main_arg14 m (outs m) c),
      (a main_arg15 (by decide)).trans (V12_main_arg15 m (outs m) c),
      (a main_arg16 (by decide)).trans (V12_main_arg16 m (outs m) c)⟩) (run m ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2.2) (run_results m ρ)

end Cert.KernelIdeal.Seg

end
-- ==== Proof.GruCell.lean ====
import Idealize.ShloMosaic.PureOps.Ideal
import Idealize.ShloMosaic.Lib.ValueIdx

noncomputable section

namespace Cert.GruCell

open Idealize.ShloMosaic Idealize.ShloMosaic.ValueIdx
open scoped BigOperators

abbrev Mat (r c : Nat) : Type := (⟨2, ![r, c]⟩ : Shape).Idx → EReal
abbrev Cube (a r c : Nat) : Type := (⟨3, ![a, r, c]⟩ : Shape).Idx → EReal
abbrev Row (n : Nat) : Type := (⟨1, ![n]⟩ : Shape).Idx → EReal

def gateRow (g : Fin 3) (j : Fin 2048) : Fin 6144 :=
  ⟨g.val * 2048 + j.val, by have := g.isLt; have := j.isLt; omega⟩

def aff3 {K : Nat} (x : Mat 16 K) (w : Cube 3 2048 K) (bias : Mat 3 2048) (g : Fin 3) (b : Fin 16) (j : Fin 2048) : EReal :=
  (∑ k : Fin K, x (ix2 b k) * w (ix3 g j k)) + bias (ix2 g j)

def aff {K : Nat} (x : Mat 16 K) (w : Mat 6144 K) (bias : Row 6144) (g : Fin 3) (b : Fin 16) (j : Fin 2048) : EReal :=
  (∑ k : Fin K, x (ix2 b k) * w (ix2 (gateRow g j) k)) + bias (ix1 (gateRow g j))

def cell (ir iz inn hr hz hn hprev : EReal) : EReal :=
  (Ideal.ofBits .f32 0x3F800000#32 - Ideal.logistic (iz + hz)) * Ideal.tanh (inn + Ideal.logistic (ir + hr) * hn)
    + Ideal.logistic (iz + hz) * hprev

def gru3At {K : Nat} (x : Mat 16 K) (h : Mat 16 2048) (wih : Cube 3 2048 K) (whh : Cube 3 2048 2048) (bih bhh : Mat 3 2048)
    (b : Fin 16) (j : Fin 2048) : EReal :=
  cell (aff3 x wih bih 0 b j) (aff3 x wih bih 1 b j) (aff3 x wih bih 2 b j)
    (aff3 h whh bhh 0 b j) (aff3 h whh bhh 1 b j) (aff3 h whh bhh 2 b j) (h (ix2 b j))

def gru3 {K : Nat} (x : Mat 16 K) (h : Mat 16 2048) (wih : Cube 3 2048 K) (whh : Cube 3 2048 2048) (bih bhh : Mat 3 2048) :
    Mat 16 2048 := fun i => gru3At x h wih whh bih bhh (i 0) (i 1)

def gruAt {K : Nat} (x : Mat 16 K) (h : Mat 16 2048) (wih : Mat 6144 K) (whh : Mat 6144 2048) (bih bhh : Row 6144)
    (b : Fin 16) (j : Fin 2048) : EReal :=
  cell (aff x wih bih 0 b j) (aff x wih bih 1 b j) (aff x wih bih 2 b j)
    (aff h whh bhh 0 b j) (aff h whh bhh 1 b j) (aff h whh bhh 2 b j) (h (ix2 b j))

def gru {K : Nat} (x : Mat 16 K) (h : Mat 16 2048) (wih : Mat 6144 K) (whh : Mat 6144 2048) (bih bhh : Row 6144) :
    Mat 16 2048 := fun i => gruAt x h wih whh bih bhh (i 0) (i 1)

/-- Both sides are one expression once every split weight and bias entry is read off the stacked array. -/
theorem gru3_eq_gru {K : Nat} (x : Mat 16 K) (h : Mat 16 2048) (wih3 : Cube 3 2048 K) (whh3 : Cube 3 2048 2048)
    (bih3 bhh3 : Mat 3 2048) (wih : Mat 6144 K) (whh : Mat 6144 2048) (bih bhh : Row 6144)
    (hwi : ∀ (g : Fin 3) (j : Fin 2048) (k : Fin K), wih3 (ix3 g j k) = wih (ix2 (gateRow g j) k))
    (hwh : ∀ (g : Fin 3) (j : Fin 2048) (k : Fin 2048), whh3 (ix3 g j k) = whh (ix2 (gateRow g j) k))
    (hbi : ∀ (g : Fin 3) (j : Fin 2048), bih3 (ix2 g j) = bih (ix1 (gateRow g j)))
    (hbh : ∀ (g : Fin 3) (j : Fin 2048), bhh3 (ix2 g j) = bhh (ix1 (gateRow g j))) :
    gru3 x h wih3 whh3 bih3 bhh3 = gru x h wih whh bih bhh := by
  have e (b : Fin 16) (j : Fin 2048) : gru3At x h wih3 whh3 bih3 bhh3 b j = gruAt x h wih whh bih bhh b j := by
    unfold gru3At gruAt aff3 aff
    simp only [hwi, hwh, hbi, hbh]
  exact funext fun i => e (i 0) (i 1)

def logitsAt (h : Mat 16 2048) (w : Mat 32000 2048) (bias : Row 32000) (b : Fin 16) (v : Fin 32000) : EReal :=
  (∑ k : Fin 2048, h (ix2 b k) * w (ix2 v k)) + bias (ix1 v)

def logits (h : Mat 16 2048) (w : Mat 32000 2048) (bias : Row 32000) : Mat 16 32000 :=
  fun i => logitsAt h w bias (i 0) (i 1)

def logitsRow (h : Mat 16 2048) (w : Mat 32000 2048) (bias : Mat 1 32000) : Mat 16 32000 :=
  fun i => (∑ k : Fin 2048, h (ix2 (i 0) k) * w (ix2 (i 1) k)) + bias (ix2 0 (i 1))

theorem logitsRow_eq_logits (h : Mat 16 2048) (w : Mat 32000 2048) (bias2 : Mat 1 32000) (bias : Row 32000)
    (hb : ∀ v : Fin 32000, bias2 (ix2 0 v) = bias (ix1 v)) : logitsRow h w bias2 = logits h w bias :=
  funext fun i => by unfold logitsRow logits logitsAt; rw [hb (i 1)]

end Cert.GruCell

end
-- ==== Proof.Val.LayerShared.lean ====
import proofs.«415147_j27384711479321_2_alg».proof.Proof.GruCell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SegVal

open Idealize.ShloMosaic Idealize.ShloMosaic.TcCoe Idealize.ShloMosaic.ValueIdx Idealize.SL.Sem
open scoped BigOperators

section Dot

variable {m n K : Nat} (D : DotDims ⟨2, ![m, K]⟩ ⟨2, ![n, K]⟩ ⟨2, ![m, n]⟩)

-- With no batch axis the left operand's free axis carries the output's row.
theorem lhs_row (hb : D.lhsBatch = []) (hn : D.lhsNonContracting = [0]) (i : (⟨2, ![m, n]⟩ : Shape).Idx) (u : D.contr.Idx) :
    (D.lhsIdx i u 0).val = (i 0).val := by
  unfold DotDims.lhsIdx
  rw [dif_neg (show ¬(0 : Fin (⟨2, ![m, K]⟩ : Shape).rank) ∈ D.lhsBatch by simp [hb]),
    dif_pos (show (0 : Fin (⟨2, ![m, K]⟩ : Shape).rank) ∈ D.lhsNonContracting by simp [hn])]
  simp only [Fin.val_cast]
  have key : ∀ (p q : Nat) (hp : p < 2) (hq : q < 2), p = q → (i ⟨p, hp⟩).val = (i ⟨q, hq⟩).val :=
    fun p q _ _ h => by subst h; rfl
  exact key _ 0 _ (by decide) (by simp [hb, hn])

-- The right operand's free axis comes after the left one's and carries the output's column.
theorem rhs_row (hlb : D.lhsBatch = []) (hln : D.lhsNonContracting = [0]) (hb : D.rhsBatch = []) (hn : D.rhsNonContracting = [0])
    (i : (⟨2, ![m, n]⟩ : Shape).Idx) (u : D.contr.Idx) : (D.rhsIdx i u 0).val = (i 1).val := by
  unfold DotDims.rhsIdx
  rw [dif_neg (show ¬(0 : Fin (⟨2, ![n, K]⟩ : Shape).rank) ∈ D.rhsBatch by simp [hb]),
    dif_pos (show (0 : Fin (⟨2, ![n, K]⟩ : Shape).rank) ∈ D.rhsNonContracting by simp [hn])]
  simp only [Fin.val_cast]
  have key : ∀ (p q : Nat) (hp : p < 2) (hq : q < 2), p = q → (i ⟨p, hp⟩).val = (i ⟨q, hq⟩).val :=
    fun p q _ _ h => by subst h; rfl
  exact key _ 1 _ (by decide) (by simp [hlb, hln, hn])

-- Both operands contracted on their second axis, into the zero accumulator: entry (b, q) is the sum over k of l[b,k] r[q,k].
theorem dotT_apply {φ₁ φ₂ : FTy} (hlb : D.lhsBatch = []) (hln : D.lhsNonContracting = [0]) (hlc : D.lhsContracting = [1])
    (hrb : D.rhsBatch = []) (hrn : D.rhsNonContracting = [0]) (hrc : D.rhsContracting = [1])
    (hr : D.contr.rank = 1) (hs : D.contr.size ⟨0, by omega⟩ = K)
    (l : FVec Ideal ⟨2, ![m, K]⟩ φ₁) (r : FVec Ideal ⟨2, ![n, K]⟩ φ₂) (b : Fin m) (q : Fin n) :
    matmul D none l r (constant (F := Ideal) ⟨2, ![m, n]⟩ .f32 0x00000000#32) (ix2 b q)
      = ∑ k : Fin K, l (ix2 b k) * r (ix2 q k) := by
  simp only [matmul]
  rw [Ideal.matmul_constant_zero_apply, ← Equiv.sum_comp (contrEquiv1 D K hr hs).symm]
  refine Finset.sum_congr rfl fun k _ => ?_
  have hk := contrEquiv1_symm_val D K hr hs k
  rw [show D.lhsIdx (ix2 b q) ((contrEquiv1 D K hr hs).symm k) = ix2 b k from funext fun a => Fin.ext (by
      match a with
      | ⟨0, _⟩ => exact lhs_row D hlb hln _ _
      | ⟨1, _⟩ => exact (D.lhsIdx_val_of_single hlc _ _).trans hk),
    show D.rhsIdx (ix2 b q) ((contrEquiv1 D K hr hs).symm k) = ix2 q k from funext fun a => Fin.ext (by
      match a with
      | ⟨0, _⟩ => exact rhs_row D hlb hln hrb hrn _ _
      | ⟨1, _⟩ => exact (D.rhsIdx_val_of_single hrc _ _).trans hk)]

end Dot

theorem zeros2 : (![0, 0] : Fin 2 → Nat) = fun _ => 0 := funext fun a => by fin_cases a <;> rfl

theorem logistic_at {s : Shape} {φ : FTy} (x : FVec Ideal s φ) (i : s.Idx) : logistic x i = Ideal.logistic (x i) := rfl
theorem tanh_at {s : Shape} {φ : FTy} (x : FVec Ideal s φ) (i : s.Idx) : tanh x i = Ideal.tanh (x i) := rfl

-- Gate g's slab of a weight block sits at leading coordinate g.
theorem slab_idx {K : Nat} (g : Nat)
    (inb : ∀ a, (![g, 0, 0] : Fin 3 → Nat) a + (⟨3, ![1, 256, K]⟩ : Shape).size a ≤ (⟨3, ![3, 256, K]⟩ : Shape).size a)
    (u : Fin 1) (q : Fin 256) (k : Fin K) :
    (Rect.unit (s := ⟨3, ![3, 256, K]⟩) ![g, 0, 0] (⟨3, ![1, 256, K]⟩ : Shape).size inb).toLoadRect.idx (ix3 u q k)
      = ix3 (⟨g, inb 0⟩ : Fin 3) q k := by
  funext a; apply Fin.ext
  have hu : u.val = 0 := by omega
  match a with
  | ⟨0, _⟩ => show g + 1 * u.val = g; omega
  | ⟨1, _⟩ => show 0 + 1 * q.val = q.val; omega
  | ⟨2, _⟩ => show 0 + 1 * k.val = k.val; omega

-- Gate g's row of a bias block sits at leading coordinate g.
theorem brow_idx (g : Nat)
    (inb : ∀ a, (![g, 0] : Fin 2 → Nat) a + (⟨2, ![1, 256]⟩ : Shape).size a ≤ (⟨2, ![3, 256]⟩ : Shape).size a)
    (u : Fin 1) (q : Fin 256) :
    (Rect.unit (s := ⟨2, ![3, 256]⟩) ![g, 0] (⟨2, ![1, 256]⟩ : Shape).size inb).toLoadRect.idx (ix2 u q) = ix2 (⟨g, inb 0⟩ : Fin 3) q := by
  funext a; apply Fin.ext
  have hu : u.val = 0 := by omega
  match a with
  | ⟨0, _⟩ => show g + 1 * u.val = g; omega
  | ⟨1, _⟩ => show 0 + 1 * q.val = q.val; omega

-- The tile's 256 columns of the previous state start at column 256 c.
theorem hcol_idx (off : Fin 2 → Nat) (c : Nat) (ho : off = ![0, 256 * c])
    (inb : ∀ a, off a + (⟨2, ![16, 256]⟩ : Shape).size a ≤ (⟨2, ![16, 2048]⟩ : Shape).size a)
    (b : Fin 16) (q : Fin 256) (j : Fin 2048) (hj : j.val = 256 * c + q.val) :
    (Rect.unit (s := ⟨2, ![16, 2048]⟩) off (⟨2, ![16, 256]⟩ : Shape).size inb).toLoadRect.idx (ix2 b q) = ix2 b j := by
  subst ho
  funext a; apply Fin.ext
  match a with
  | ⟨0, _⟩ => show 0 + 1 * b.val = b.val; omega
  | ⟨1, _⟩ => show 256 * c + 1 * q.val = j.val; omega

-- A bias row flattened, restored to one row and repeated down the rows reads the row.
theorem bias_at {n : Nat} (v : Vec Ideal ⟨2, ![1, 256]⟩ .f32) (h1 h2 h3) (b : Fin n) (q : Fin 256) :
    (broadcastTo ⟨2, ![n, 256]⟩ (shapeCast ⟨2, ![1, 256]⟩ (shapeCast ⟨1, ![256]⟩ v h1 : FVec Ideal ⟨1, ![256]⟩ .f32) h2) h3
      : FVec Ideal ⟨2, ![n, 256]⟩ .f32) (ix2 b q) = v (ix2 (0 : Fin 1) q) := by
  rw [broadcastTo_1b_ab_apply, shapeCast_a_1a_apply, shapeCast_1a_a_apply]

-- Gate g's affine map of row b at column q of a tile, over the tile's weight and bias blocks.
def affBlk {K : Nat} (x : Cert.GruCell.Mat 16 K) (w : Cert.GruCell.Cube 3 256 K) (bias : Cert.GruCell.Mat 3 256)
    (g : Fin 3) (b : Fin 16) (q : Fin 256) : EReal :=
  (∑ k : Fin K, x (ix2 b k) * w (ix3 g q k)) + bias (ix2 g q)

-- Blocks that are their arrays' rows and columns 256 t ... make the tile's cell the layer's entry in column j = 256 t + q.
theorem cell_blk {K : Nat} (X : Cert.GruCell.Mat 16 K) (H : Cert.GruCell.Mat 16 2048) (Wi : Cert.GruCell.Cube 3 2048 K)
    (Wh : Cert.GruCell.Cube 3 2048 2048) (Bi Bh : Cert.GruCell.Mat 3 2048)
    (x0 : Cert.GruCell.Mat 16 K) (x1 : Cert.GruCell.Mat 16 2048) (x2 : Cert.GruCell.Cube 3 256 K) (x3 : Cert.GruCell.Cube 3 256 2048)
    (x4 x5 : Cert.GruCell.Mat 3 256) (b : Fin 16) (q : Fin 256) (j : Fin 2048)
    (h0 : ∀ k, x0 (ix2 b k) = X (ix2 b k)) (h1 : ∀ k, x1 (ix2 b k) = H (ix2 b k))
    (h2 : ∀ g k, x2 (ix3 g q k) = Wi (ix3 g j k)) (h3 : ∀ g k, x3 (ix3 g q k) = Wh (ix3 g j k))
    (h4 : ∀ g, x4 (ix2 g q) = Bi (ix2 g j)) (h5 : ∀ g, x5 (ix2 g q) = Bh (ix2 g j)) :
    Cert.GruCell.cell (affBlk x0 x2 x4 0 b q) (affBlk x0 x2 x4 1 b q) (affBlk x0 x2 x4 2 b q)
        (affBlk x1 x3 x5 0 b q) (affBlk x1 x3 x5 1 b q) (affBlk x1 x3 x5 2 b q) (x1 (ix2 b j))
      = Cert.GruCell.gru3At X H Wi Wh Bi Bh b j := by
  unfold Cert.GruCell.gru3At Cert.GruCell.aff3 affBlk
  simp only [h0, h1, h2, h3, h4, h5]

theorem idx3_ext {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

end Cert.KernelIdeal.SegVal

end
-- ==== Proof.Val.Layer0Val.lean ====
import proofs.«415147_j27384711479321_2_alg».proof.Proof.Val.LayerShared
import proofs.«415147_j27384711479321_2_alg».proof.Proof.KI.Bodies
import proofs.«415147_j27384711479321_2_alg».proof.Proof.Gen.KernelIdeal.Launch
import proofs.«415147_j27384711479321_2_alg».proof.Proof.Gen.KernelIdeal.Points

noncomputable section

namespace Cert.KernelIdeal.SegVal

open Idealize.ShloMosaic Idealize.ShloMosaic.TcCoe Idealize.ShloMosaic.ValueIdx Idealize.SL.Sem
open Cert.KernelIdeal Cert.KernelIdeal.Gen Cert.KernelIdeal.Seg
open scoped BigOperators

-- Read at (b, q) the body's tile is the cell of the six gate maps over its blocks and of the previous state in column j.
theorem tile0_at (i : grid0.Coords) (xin : Vec Ideal S16x128 .f32) (hin : Vec Ideal S16x2048 .f32) (wi : Vec Ideal S3x256x128 .f32)
    (wh : Vec Ideal S3x256x2048 .f32) (bi bh : Vec Ideal S3x256 .f32)
    (b : Fin 16) (q : Fin 256) (j : Fin 2048) (hj : j.val = 256 * (i 0).val + q.val) :
    newTile0 i xin hin wi wh bi bh (ix2 b q)
      = Cert.GruCell.cell (affBlk xin wi bi 0 b q) (affBlk xin wi bi 1 b q) (affBlk xin wi bi 2 b q)
          (affBlk hin wh bh 0 b q) (affBlk hin wh bh 1 b q) (affBlk hin wh bh 2 b q) (hin (ix2 b j)) := by
  have hc := hcol_idx (k0_off1 i) (i 0).val (k0_off1_eq i) (k0_off1_inb i) b q j hj
  unfold newTile0 k0_pay1 k0_pay13 k0_pay14 k0_pay12 k0_pay2 k0_pay3 k0_pay4 k0_pay5 k0_pay6 k0_pay7 k0_pay8 k0_pay9 k0_pay10 k0_pay11
  simp only [addf_apply, mulf_apply, subf_apply, broadcast_apply, logistic_at, tanh_at, bias_at, truncf_apply, shapeCast_self,
    shapeCast_1ab_ab_apply, View.ld_unit_zero (S := S16x128) zeros2, View.ld_unit_zero (S := S16x2048) zeros2,
    dotT_apply dot_S16x128_S256x128_S16x256_1_1_0_0_n_n rfl rfl rfl rfl rfl rfl rfl rfl,
    dotT_apply dot_S16x2048_S256x2048_S16x256_1_1_0_0_n_n rfl rfl rfl rfl rfl rfl rfl rfl]
  simp only [View.ld, slab_idx, brow_idx, hc]
  rfl

theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = t.val ∧ win0_3.index t (2 : Fin 3) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ ((grid0.coords t) 0).val = t.val ∧ t.val < 8 :=
  (by decide +kernel : ∀ t : Fin grid0.N, _)

section Array

variable (V : (c : Dev nD) → (b : Ref sig .tc) → Buf (Elt Ideal) ((c : Thread nD τ).loc b)) (c : Dev nD)

-- A block's entry is its array's at block index times block size plus the coordinate, so point t's tile is the layer in columns 256 t ...
theorem tile0_blk (t : Fin cfg0.N) (y : S16x256.Idx) (i : S16x2048.Idx)
    (hrow : (i 0).val = (y 0).val) (hcol : (i 1).val = 256 * t.val + (y 1).val) :
    newTile0 (grid0.coords t) (iblk0 V c 0 t) (iblk0 V c 1 t) (iblk0 V c 2 t) (iblk0 V c 3 t) (iblk0 V c 4 t) (iblk0 V c 5 t) y
      = Cert.GruCell.gru3 (V c main_v2) (V c main_v4) (V c main_v5) (V c main_v6) (V c main_v7) (V c main_v8) i := by
  obtain ⟨e00, e01, e10, e11, e20, e21, e22, e30, e31, e32, e40, e41, e50, e51, -, -, hc, ht⟩ := idx_facts0 t
  obtain ⟨b, q, rfl⟩ : ∃ (b : Fin 16) (q : Fin 256), y = ix2 b q := ⟨y 0, y 1, eq_ix2 y⟩
  have hq : q.val < 256 := q.isLt
  have hlt : 256 * t.val + q.val < 2048 := by omega
  rw [show i = ix2 b (⟨_, hlt⟩ : Fin 2048) from Shape.idx_ext₂ hrow hcol]
  rw [tile0_at (grid0.coords t) _ _ _ _ _ _ b q ⟨_, hlt⟩ (by rw [hc])]
  exact cell_blk _ _ _ _ _ _ _ _ _ _ _ _ b q _
    (fun k => congrArg (V c main_v2) (Shape.idx_ext₂ (by show win0_0.index t (0 : Fin 2) * 16 + 1 * b.val = b.val; omega)
      (by show win0_0.index t (1 : Fin 2) * 128 + 1 * k.val = k.val; omega)))
    (fun k => congrArg (V c main_v4) (Shape.idx_ext₂ (by show win0_1.index t (0 : Fin 2) * 16 + 1 * b.val = b.val; omega)
      (by show win0_1.index t (1 : Fin 2) * 2048 + 1 * k.val = k.val; omega)))
    (fun g k => congrArg (V c main_v5) (idx3_ext (by show win0_2.index t (0 : Fin 3) * 3 + 1 * g.val = g.val; omega)
      (by show win0_2.index t (1 : Fin 3) * 256 + 1 * q.val = 256 * t.val + q.val; omega)
      (by show win0_2.index t (2 : Fin 3) * 128 + 1 * k.val = k.val; omega)))
    (fun g k => congrArg (V c main_v6) (idx3_ext (by show win0_3.index t (0 : Fin 3) * 3 + 1 * g.val = g.val; omega)
      (by show win0_3.index t (1 : Fin 3) * 256 + 1 * q.val = 256 * t.val + q.val; omega)
      (by show win0_3.index t (2 : Fin 3) * 2048 + 1 * k.val = k.val; omega)))
    (fun g => congrArg (V c main_v7) (Shape.idx_ext₂ (by show win0_4.index t (0 : Fin 2) * 3 + 1 * g.val = g.val; omega)
      (by show win0_4.index t (1 : Fin 2) * 256 + 1 * q.val = 256 * t.val + q.val; omega)))
    (fun g => congrArg (V c main_v8) (Shape.idx_ext₂ (by show win0_5.index t (0 : Fin 2) * 3 + 1 * g.val = g.val; omega)
      (by show win0_5.index t (1 : Fin 2) * 256 + 1 * q.val = 256 * t.val + q.val; omega)))

-- Column j lies in the block of point j / 256.
theorem cover0 (i : S16x2048.Idx) : ∃ t : Fin cfg0.N, (cfg0.win 6).flush t = true ∧ i ∈ ((cfg0.win 6).blk t).view.set := by
  have hrow : (i 0).val < 16 := (i 0).isLt
  have hcol : (i 1).val < 2048 := (i 1).isLt
  have hN : cfg0.N = 8 := N_0
  obtain ⟨t, ht⟩ : ∃ t : Fin cfg0.N, t.val = (i 1).val / 256 := ⟨⟨(i 1).val / 256, by rw [hN]; omega⟩, rfl⟩
  obtain ⟨-, -, -, -, -, -, -, -, -, -, -, -, -, -, ea, eb, -⟩ := idx_facts0 t
  refine ⟨t, flush0_6 t, ?_⟩
  show i ∈ ((View.whole main_v9).slice (win0_6.rect t)).set
  rw [View.set_slice_whole, Rect.mem_set_unit]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 256 ≤ (i 1).val ∧ (i 1).val < win0_6.index t (1 : Fin 2) * 256 + 256; omega

end Array

-- The block each point leaves is the layer's block there, and the blocks cover the array.
theorem layer0_array (V : (c : Dev nD) → (b : Ref sig .tc) → Buf (Elt Ideal) ((c : Thread nD τ).loc b)) (c : Dev nD)
    (dat : Pipeline.Dat τ (Elt Ideal) Unit ℕ (UR sig nD τ) ℕ cfg0 c)
    (hA : ∀ w, dat.A w = V c (Pipeline.arrRef spec0 w))
    (hafter : ∀ t, dat.after 6 t = out0_6 (grid0.coords t) (iblk0 V c 0 t) (iblk0 V c 1 t) (iblk0 V c 2 t) (iblk0 V c 3 t) (iblk0 V c 4 t) (iblk0 V c 5 t)) :
    dat.arrAt 6 cfg0.N = Cert.GruCell.gru3 (V c main_v2) (V c main_v4) (V c main_v5) (V c main_v6) (V c main_v7) (V c main_v8) :=
  dat.arrAt_eq_of_cover 6 _ (fun t _ => by
    obtain ⟨-, -, -, -, -, -, -, -, -, -, -, -, -, -, ea, eb, -⟩ := idx_facts0 t
    show (cfg0.win 6).cut (grid0.coords t) (dat.after 6 t) = _
    rw [hafter t]
    unfold out0_6
    rw [View.canon_unit_zero zeros2]
    funext y
    rw [View.read_apply]
    refine tile0_blk V c t y _ ?_ ?_
    · show win0_6.index t (0 : Fin 2) * 16 + 1 * (y 0).val = (y 0).val; omega
    · show win0_6.index t (1 : Fin 2) * 256 + 1 * (y 1).val = 256 * t.val + (y 1).val; omega) cover0

end Cert.KernelIdeal.SegVal
end
-- ==== Proof.Val.Layer1Val.lean ====
import proofs.«415147_j27384711479321_2_alg».proof.Proof.Val.LayerShared
import proofs.«415147_j27384711479321_2_alg».proof.Proof.KI.Bodies
import proofs.«415147_j27384711479321_2_alg».proof.Proof.Gen.KernelIdeal.Launch
import proofs.«415147_j27384711479321_2_alg».proof.Proof.Gen.KernelIdeal.Points

noncomputable section

namespace Cert.KernelIdeal.SegVal

open Idealize.ShloMosaic Idealize.ShloMosaic.TcCoe Idealize.ShloMosaic.ValueIdx Idealize.SL.Sem
open Cert.KernelIdeal Cert.KernelIdeal.Gen Cert.KernelIdeal.Seg
open scoped BigOperators

-- Read at (b, q) the body's tile is the cell of the six gate maps over its blocks and of the previous state in column j.
theorem tile1_at (i : grid1.Coords) (xin : Vec Ideal S16x2048 .f32) (hin : Vec Ideal S16x2048 .f32) (wi : Vec Ideal S3x256x2048 .f32)
    (wh : Vec Ideal S3x256x2048 .f32) (bi bh : Vec Ideal S3x256 .f32)
    (b : Fin 16) (q : Fin 256) (j : Fin 2048) (hj : j.val = 256 * (i 0).val + q.val) :
    newTile1 i xin hin wi wh bi bh (ix2 b q)
      = Cert.GruCell.cell (affBlk xin wi bi 0 b q) (affBlk xin wi bi 1 b q) (affBlk xin wi bi 2 b q)
          (affBlk hin wh bh 0 b q) (affBlk hin wh bh 1 b q) (affBlk hin wh bh 2 b q) (hin (ix2 b j)) := by
  have hc := hcol_idx (k1_off1 i) (i 0).val (k1_off1_eq i) (k1_off1_inb i) b q j hj
  unfold newTile1 k1_pay1 k1_pay13 k1_pay14 k1_pay12 k1_pay2 k1_pay3 k1_pay4 k1_pay5 k1_pay6 k1_pay7 k1_pay8 k1_pay9 k1_pay10 k1_pay11
  simp only [addf_apply, mulf_apply, subf_apply, broadcast_apply, logistic_at, tanh_at, bias_at, truncf_apply, shapeCast_self,
    shapeCast_1ab_ab_apply, View.ld_unit_zero (S := S16x2048) zeros2,
    dotT_apply dot_S16x2048_S256x2048_S16x256_1_1_0_0_n_n rfl rfl rfl rfl rfl rfl rfl rfl]
  simp only [View.ld, slab_idx, brow_idx, hc]
  rfl

theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 3) = 0 ∧ win1_2.index t (1 : Fin 3) = t.val ∧ win1_2.index t (2 : Fin 3) = 0
    ∧ win1_3.index t (0 : Fin 3) = 0 ∧ win1_3.index t (1 : Fin 3) = t.val ∧ win1_3.index t (2 : Fin 3) = 0
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val
    ∧ ((grid1.coords t) 0).val = t.val ∧ t.val < 8 :=
  (by decide +kernel : ∀ t : Fin grid1.N, _)

section Array

variable (V : (c : Dev nD) → (b : Ref sig .tc) → Buf (Elt Ideal) ((c : Thread nD τ).loc b)) (c : Dev nD)

-- A block's entry is its array's at block index times block size plus the coordinate, so point t's tile is the layer in columns 256 t ...
theorem tile1_blk (t : Fin cfg1.N) (y : S16x256.Idx) (i : S16x2048.Idx)
    (hrow : (i 0).val = (y 0).val) (hcol : (i 1).val = 256 * t.val + (y 1).val) :
    newTile1 (grid1.coords t) (iblk1 V c 0 t) (iblk1 V c 1 t) (iblk1 V c 2 t) (iblk1 V c 3 t) (iblk1 V c 4 t) (iblk1 V c 5 t) y
      = Cert.GruCell.gru3 (V c main_v9) (V c main_v11) (V c main_v12) (V c main_v13) (V c main_v14) (V c main_v15) i := by
  obtain ⟨e00, e01, e10, e11, e20, e21, e22, e30, e31, e32, e40, e41, e50, e51, -, -, hc, ht⟩ := idx_facts1 t
  obtain ⟨b, q, rfl⟩ : ∃ (b : Fin 16) (q : Fin 256), y = ix2 b q := ⟨y 0, y 1, eq_ix2 y⟩
  have hq : q.val < 256 := q.isLt
  have hlt : 256 * t.val + q.val < 2048 := by omega
  rw [show i = ix2 b (⟨_, hlt⟩ : Fin 2048) from Shape.idx_ext₂ hrow hcol]
  rw [tile1_at (grid1.coords t) _ _ _ _ _ _ b q ⟨_, hlt⟩ (by rw [hc])]
  exact cell_blk _ _ _ _ _ _ _ _ _ _ _ _ b q _
    (fun k => congrArg (V c main_v9) (Shape.idx_ext₂ (by show win1_0.index t (0 : Fin 2) * 16 + 1 * b.val = b.val; omega)
      (by show win1_0.index t (1 : Fin 2) * 2048 + 1 * k.val = k.val; omega)))
    (fun k => congrArg (V c main_v11) (Shape.idx_ext₂ (by show win1_1.index t (0 : Fin 2) * 16 + 1 * b.val = b.val; omega)
      (by show win1_1.index t (1 : Fin 2) * 2048 + 1 * k.val = k.val; omega)))
    (fun g k => congrArg (V c main_v12) (idx3_ext (by show win1_2.index t (0 : Fin 3) * 3 + 1 * g.val = g.val; omega)
      (by show win1_2.index t (1 : Fin 3) * 256 + 1 * q.val = 256 * t.val + q.val; omega)
      (by show win1_2.index t (2 : Fin 3) * 2048 + 1 * k.val = k.val; omega)))
    (fun g k => congrArg (V c main_v13) (idx3_ext (by show win1_3.index t (0 : Fin 3) * 3 + 1 * g.val = g.val; omega)
      (by show win1_3.index t (1 : Fin 3) * 256 + 1 * q.val = 256 * t.val + q.val; omega)
      (by show win1_3.index t (2 : Fin 3) * 2048 + 1 * k.val = k.val; omega)))
    (fun g => congrArg (V c main_v14) (Shape.idx_ext₂ (by show win1_4.index t (0 : Fin 2) * 3 + 1 * g.val = g.val; omega)
      (by show win1_4.index t (1 : Fin 2) * 256 + 1 * q.val = 256 * t.val + q.val; omega)))
    (fun g => congrArg (V c main_v15) (Shape.idx_ext₂ (by show win1_5.index t (0 : Fin 2) * 3 + 1 * g.val = g.val; omega)
      (by show win1_5.index t (1 : Fin 2) * 256 + 1 * q.val = 256 * t.val + q.val; omega)))

-- Column j lies in the block of point j / 256.
theorem cover1 (i : S16x2048.Idx) : ∃ t : Fin cfg1.N, (cfg1.win 6).flush t = true ∧ i ∈ ((cfg1.win 6).blk t).view.set := by
  have hrow : (i 0).val < 16 := (i 0).isLt
  have hcol : (i 1).val < 2048 := (i 1).isLt
  have hN : cfg1.N = 8 := N_1
  obtain ⟨t, ht⟩ : ∃ t : Fin cfg1.N, t.val = (i 1).val / 256 := ⟨⟨(i 1).val / 256, by rw [hN]; omega⟩, rfl⟩
  obtain ⟨-, -, -, -, -, -, -, -, -, -, -, -, -, -, ea, eb, -⟩ := idx_facts1 t
  refine ⟨t, flush1_6 t, ?_⟩
  show i ∈ ((View.whole main_v16).slice (win1_6.rect t)).set
  rw [View.set_slice_whole, Rect.mem_set_unit]
  intro a
  match a with
  | ⟨0, _⟩ => show win1_6.index t (0 : Fin 2) * 16 ≤ (i 0).val ∧ (i 0).val < win1_6.index t (0 : Fin 2) * 16 + 16; omega
  | ⟨1, _⟩ => show win1_6.index t (1 : Fin 2) * 256 ≤ (i 1).val ∧ (i 1).val < win1_6.index t (1 : Fin 2) * 256 + 256; omega

end Array

-- The block each point leaves is the layer's block there, and the blocks cover the array.
theorem layer1_array (V : (c : Dev nD) → (b : Ref sig .tc) → Buf (Elt Ideal) ((c : Thread nD τ).loc b)) (c : Dev nD)
    (dat : Pipeline.Dat τ (Elt Ideal) Unit ℕ (UR sig nD τ) ℕ cfg1 c)
    (hA : ∀ w, dat.A w = V c (Pipeline.arrRef spec1 w))
    (hafter : ∀ t, dat.after 6 t = out1_6 (grid1.coords t) (iblk1 V c 0 t) (iblk1 V c 1 t) (iblk1 V c 2 t) (iblk1 V c 3 t) (iblk1 V c 4 t) (iblk1 V c 5 t)) :
    dat.arrAt 6 cfg1.N = Cert.GruCell.gru3 (V c main_v9) (V c main_v11) (V c main_v12) (V c main_v13) (V c main_v14) (V c main_v15) :=
  dat.arrAt_eq_of_cover 6 _ (fun t _ => by
    obtain ⟨-, -, -, -, -, -, -, -, -, -, -, -, -, -, ea, eb, -⟩ := idx_facts1 t
    show (cfg1.win 6).cut (grid1.coords t) (dat.after 6 t) = _
    rw [hafter t]
    unfold out1_6
    rw [View.canon_unit_zero zeros2]
    funext y
    rw [View.read_apply]
    refine tile1_blk V c t y _ ?_ ?_
    · show win1_6.index t (0 : Fin 2) * 16 + 1 * (y 0).val = (y 0).val; omega
    · show win1_6.index t (1 : Fin 2) * 256 + 1 * (y 1).val = 256 * t.val + (y 1).val; omega) cover1

end Cert.KernelIdeal.SegVal
end
-- ==== Proof.Val.Layer2Val.lean ====
import proofs.«415147_j27384711479321_2_alg».proof.Proof.Val.LayerShared
import proofs.«415147_j27384711479321_2_alg».proof.Proof.KI.Bodies
import proofs.«415147_j27384711479321_2_alg».proof.Proof.Gen.KernelIdeal.Launch
import proofs.«415147_j27384711479321_2_alg».proof.Proof.Gen.KernelIdeal.Points

noncomputable section

namespace Cert.KernelIdeal.SegVal

open Idealize.ShloMosaic Idealize.ShloMosaic.TcCoe Idealize.ShloMosaic.ValueIdx Idealize.SL.Sem
open Cert.KernelIdeal Cert.KernelIdeal.Gen Cert.KernelIdeal.Seg
open scoped BigOperators

-- Read at (b, q) the body's tile is the cell of the six gate maps over its blocks and of the previous state in column j.
theorem tile2_at (i : grid2.Coords) (xin : Vec Ideal S16x2048 .f32) (hin : Vec Ideal S16x2048 .f32) (wi : Vec Ideal S3x256x2048 .f32)
    (wh : Vec Ideal S3x256x2048 .f32) (bi bh : Vec Ideal S3x256 .f32)
    (b : Fin 16) (q : Fin 256) (j : Fin 2048) (hj : j.val = 256 * (i 0).val + q.val) :
    newTile2 i xin hin wi wh bi bh (ix2 b q)
      = Cert.GruCell.cell (affBlk xin wi bi 0 b q) (affBlk xin wi bi 1 b q) (affBlk xin wi bi 2 b q)
          (affBlk hin wh bh 0 b q) (affBlk hin wh bh 1 b q) (affBlk hin wh bh 2 b q) (hin (ix2 b j)) := by
  have hc := hcol_idx (k2_off1 i) (i 0).val (k2_off1_eq i) (k2_off1_inb i) b q j hj
  unfold newTile2 k2_pay1 k2_pay13 k2_pay14 k2_pay12 k2_pay2 k2_pay3 k2_pay4 k2_pay5 k2_pay6 k2_pay7 k2_pay8 k2_pay9 k2_pay10 k2_pay11
  simp only [addf_apply, mulf_apply, subf_apply, broadcast_apply, logistic_at, tanh_at, bias_at, truncf_apply, shapeCast_self,
    shapeCast_1ab_ab_apply, View.ld_unit_zero (S := S16x2048) zeros2,
    dotT_apply dot_S16x2048_S256x2048_S16x256_1_1_0_0_n_n rfl rfl rfl rfl rfl rfl rfl rfl]
  simp only [View.ld, slab_idx, brow_idx, hc]
  rfl

theorem idx_facts2 : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 3) = 0 ∧ win2_2.index t (1 : Fin 3) = t.val ∧ win2_2.index t (2 : Fin 3) = 0
    ∧ win2_3.index t (0 : Fin 3) = 0 ∧ win2_3.index t (1 : Fin 3) = t.val ∧ win2_3.index t (2 : Fin 3) = 0
    ∧ win2_4.index t (0 : Fin 2) = 0 ∧ win2_4.index t (1 : Fin 2) = t.val
    ∧ win2_5.index t (0 : Fin 2) = 0 ∧ win2_5.index t (1 : Fin 2) = t.val
    ∧ win2_6.index t (0 : Fin 2) = 0 ∧ win2_6.index t (1 : Fin 2) = t.val
    ∧ ((grid2.coords t) 0).val = t.val ∧ t.val < 8 :=
  (by decide +kernel : ∀ t : Fin grid2.N, _)

section Array

variable (V : (c : Dev nD) → (b : Ref sig .tc) → Buf (Elt Ideal) ((c : Thread nD τ).loc b)) (c : Dev nD)

-- A block's entry is its array's at block index times block size plus the coordinate, so point t's tile is the layer in columns 256 t ...
theorem tile2_blk (t : Fin cfg2.N) (y : S16x256.Idx) (i : S16x2048.Idx)
    (hrow : (i 0).val = (y 0).val) (hcol : (i 1).val = 256 * t.val + (y 1).val) :
    newTile2 (grid2.coords t) (iblk2 V c 0 t) (iblk2 V c 1 t) (iblk2 V c 2 t) (iblk2 V c 3 t) (iblk2 V c 4 t) (iblk2 V c 5 t) y
      = Cert.GruCell.gru3 (V c main_v16) (V c main_v18) (V c main_v19) (V c main_v20) (V c main_v21) (V c main_v22) i := by
  obtain ⟨e00, e01, e10, e11, e20, e21, e22, e30, e31, e32, e40, e41, e50, e51, -, -, hc, ht⟩ := idx_facts2 t
  obtain ⟨b, q, rfl⟩ : ∃ (b : Fin 16) (q : Fin 256), y = ix2 b q := ⟨y 0, y 1, eq_ix2 y⟩
  have hq : q.val < 256 := q.isLt
  have hlt : 256 * t.val + q.val < 2048 := by omega
  rw [show i = ix2 b (⟨_, hlt⟩ : Fin 2048) from Shape.idx_ext₂ hrow hcol]
  rw [tile2_at (grid2.coords t) _ _ _ _ _ _ b q ⟨_, hlt⟩ (by rw [hc])]
  exact cell_blk _ _ _ _ _ _ _ _ _ _ _ _ b q _
    (fun k => congrArg (V c main_v16) (Shape.idx_ext₂ (by show win2_0.index t (0 : Fin 2) * 16 + 1 * b.val = b.val; omega)
      (by show win2_0.index t (1 : Fin 2) * 2048 + 1 * k.val = k.val; omega)))
    (fun k => congrArg (V c main_v18) (Shape.idx_ext₂ (by show win2_1.index t (0 : Fin 2) * 16 + 1 * b.val = b.val; omega)
      (by show win2_1.index t (1 : Fin 2) * 2048 + 1 * k.val = k.val; omega)))
    (fun g k => congrArg (V c main_v19) (idx3_ext (by show win2_2.index t (0 : Fin 3) * 3 + 1 * g.val = g.val; omega)
      (by show win2_2.index t (1 : Fin 3) * 256 + 1 * q.val = 256 * t.val + q.val; omega)
      (by show win2_2.index t (2 : Fin 3) * 2048 + 1 * k.val = k.val; omega)))
    (fun g k => congrArg (V c main_v20) (idx3_ext (by show win2_3.index t (0 : Fin 3) * 3 + 1 * g.val = g.val; omega)
      (by show win2_3.index t (1 : Fin 3) * 256 + 1 * q.val = 256 * t.val + q.val; omega)
      (by show win2_3.index t (2 : Fin 3) * 2048 + 1 * k.val = k.val; omega)))
    (fun g => congrArg (V c main_v21) (Shape.idx_ext₂ (by show win2_4.index t (0 : Fin 2) * 3 + 1 * g.val = g.val; omega)
      (by show win2_4.index t (1 : Fin 2) * 256 + 1 * q.val = 256 * t.val + q.val; omega)))
    (fun g => congrArg (V c main_v22) (Shape.idx_ext₂ (by show win2_5.index t (0 : Fin 2) * 3 + 1 * g.val = g.val; omega)
      (by show win2_5.index t (1 : Fin 2) * 256 + 1 * q.val = 256 * t.val + q.val; omega)))

-- Column j lies in the block of point j / 256.
theorem cover2 (i : S16x2048.Idx) : ∃ t : Fin cfg2.N, (cfg2.win 6).flush t = true ∧ i ∈ ((cfg2.win 6).blk t).view.set := by
  have hrow : (i 0).val < 16 := (i 0).isLt
  have hcol : (i 1).val < 2048 := (i 1).isLt
  have hN : cfg2.N = 8 := N_2
  obtain ⟨t, ht⟩ : ∃ t : Fin cfg2.N, t.val = (i 1).val / 256 := ⟨⟨(i 1).val / 256, by rw [hN]; omega⟩, rfl⟩
  obtain ⟨-, -, -, -, -, -, -, -, -, -, -, -, -, -, ea, eb, -⟩ := idx_facts2 t
  refine ⟨t, flush2_6 t, ?_⟩
  show i ∈ ((View.whole main_v23).slice (win2_6.rect t)).set
  rw [View.set_slice_whole, Rect.mem_set_unit]
  intro a
  match a with
  | ⟨0, _⟩ => show win2_6.index t (0 : Fin 2) * 16 ≤ (i 0).val ∧ (i 0).val < win2_6.index t (0 : Fin 2) * 16 + 16; omega
  | ⟨1, _⟩ => show win2_6.index t (1 : Fin 2) * 256 ≤ (i 1).val ∧ (i 1).val < win2_6.index t (1 : Fin 2) * 256 + 256; omega

end Array

-- The block each point leaves is the layer's block there, and the blocks cover the array.
theorem layer2_array (V : (c : Dev nD) → (b : Ref sig .tc) → Buf (Elt Ideal) ((c : Thread nD τ).loc b)) (c : Dev nD)
    (dat : Pipeline.Dat τ (Elt Ideal) Unit ℕ (UR sig nD τ) ℕ cfg2 c)
    (hA : ∀ w, dat.A w = V c (Pipeline.arrRef spec2 w))
    (hafter : ∀ t, dat.after 6 t = out2_6 (grid2.coords t) (iblk2 V c 0 t) (iblk2 V c 1 t) (iblk2 V c 2 t) (iblk2 V c 3 t) (iblk2 V c 4 t) (iblk2 V c 5 t)) :
    dat.arrAt 6 cfg2.N = Cert.GruCell.gru3 (V c main_v16) (V c main_v18) (V c main_v19) (V c main_v20) (V c main_v21) (V c main_v22) :=
  dat.arrAt_eq_of_cover 6 _ (fun t _ => by
    obtain ⟨-, -, -, -, -, -, -, -, -, -, -, -, -, -, ea, eb, -⟩ := idx_facts2 t
    show (cfg2.win 6).cut (grid2.coords t) (dat.after 6 t) = _
    rw [hafter t]
    unfold out2_6
    rw [View.canon_unit_zero zeros2]
    funext y
    rw [View.read_apply]
    refine tile2_blk V c t y _ ?_ ?_
    · show win2_6.index t (0 : Fin 2) * 16 + 1 * (y 0).val = (y 0).val; omega
    · show win2_6.index t (1 : Fin 2) * 256 + 1 * (y 1).val = 256 * t.val + (y 1).val; omega) cover2

end Cert.KernelIdeal.SegVal
end
-- ==== Proof.Val.ProjectVal.lean ====
import proofs.«415147_j27384711479321_2_alg».proof.Proof.Val.LayerShared
import proofs.«415147_j27384711479321_2_alg».proof.Proof.KI.Bodies
import proofs.«415147_j27384711479321_2_alg».proof.Proof.Gen.KernelIdeal.Launch
import proofs.«415147_j27384711479321_2_alg».proof.Proof.Gen.KernelIdeal.Points

noncomputable section

namespace Cert.KernelIdeal.SegVal

open Idealize.ShloMosaic Idealize.ShloMosaic.TcCoe Idealize.SL.Sem Idealize.ShloMosaic.ValueIdx
open Cert.KernelIdeal Cert.KernelIdeal.Gen Cert.KernelIdeal.Seg
open scoped BigOperators

-- Read at (b, q) the tile is the state's row b against the slab's row q, plus the bias slab's entry q.
theorem logitTile_apply (x0 : Vec Ideal S16x2048 .f32) (x1 : Vec Ideal S1280x2048 .f32) (x2 : Vec Ideal S1x1280 .f32)
    (b : Fin 16) (q : Fin 1280) :
    logitTile x0 x1 x2 (ix2 b q) = (∑ k : Fin 2048, x0 (ix2 b k) * x1 (ix2 q k)) + x2 (ix2 0 q) := by
  unfold logitTile k3_pay1
  simp only [View.ld_unit_zero (S := S16x2048) zeros2, View.ld_unit_zero (S := S1280x2048) zeros2,
    View.ld_unit_zero (S := S1x1280) zeros2, shapeCast_self]
  rw [addf_apply, dotT_apply dot_S16x2048_S1280x2048_S16x1280_1_1_0_0_n_n rfl rfl rfl rfl rfl rfl rfl rfl,
    broadcastTo_1b_ab_apply]
  rfl

theorem idx_facts3 : ∀ t : Fin cfg3.N, win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

section Region

variable (V : (c : Dev nD) → (b : Ref sig .tc) → Buf (Elt Ideal) ((c : Thread nD τ).loc b)) (c : Dev nD)

-- The weight's block holds rows 1280 t ... and the bias's block columns 1280 t ..., so point t's tile is the projection in columns 1280 t ...
theorem tile3_blk (t : Fin cfg3.N) (y : S16x1280.Idx) (i : S16x32000.Idx)
    (hrow : (i 0).val = (y 0).val) (hcol : (i 1).val = t.val * 1280 + (y 1).val) :
    logitTile (iblk3 V c 0 t) (iblk3 V c 1 t) (iblk3 V c 2 t) y
      = Cert.GruCell.logitsRow (V c main_v23) (V c main_arg15) (V c main_v28) i := by
  obtain ⟨e00, e01, e10, e11, e20, e21, -, -⟩ := idx_facts3 t
  obtain ⟨b, q, rfl⟩ : ∃ (b : Fin 16) (q : Fin 1280), y = ix2 b q := ⟨y 0, y 1, eq_ix2 y⟩
  obtain ⟨b', v, rfl⟩ : ∃ (b' : Fin 16) (v : Fin 32000), i = ix2 b' v := ⟨i 0, i 1, eq_ix2 i⟩
  obtain rfl : b' = b := Fin.ext hrow
  have hv : v.val = t.val * 1280 + q.val := hcol
  have h0 : ∀ k, (iblk3 V c 0 t : Vec Ideal S16x2048 .f32) (ix2 b' k) = V c main_v23 (ix2 b' k) := fun k =>
    congrArg (V c main_v23) (Shape.idx_ext₂ (by show win3_0.index t (0 : Fin 2) * 16 + 1 * b'.val = b'.val; omega)
      (by show win3_0.index t (1 : Fin 2) * 2048 + 1 * k.val = k.val; omega))
  have h1 : ∀ k, (iblk3 V c 1 t : Vec Ideal S1280x2048 .f32) (ix2 q k) = V c main_arg15 (ix2 v k) := fun k =>
    congrArg (V c main_arg15) (Shape.idx_ext₂ (by show win3_1.index t (0 : Fin 2) * 1280 + 1 * q.val = v.val; omega)
      (by show win3_1.index t (1 : Fin 2) * 2048 + 1 * k.val = k.val; omega))
  have h2 : (iblk3 V c 2 t : Vec Ideal S1x1280 .f32) (ix2 0 q) = V c main_v28 (ix2 0 v) :=
    congrArg (V c main_v28) (Shape.idx_ext₂ (by show win3_2.index t (0 : Fin 2) * 1 + 1 * 0 = 0; omega)
      (by show win3_2.index t (1 : Fin 2) * 1280 + 1 * q.val = v.val; omega))
  rw [logitTile_apply, h2]
  exact congrArg (· + _) (Finset.sum_congr rfl fun k _ => by rw [h0, h1])

-- Column v lies in the block of point v / 1280.
theorem cover3 (i : S16x32000.Idx) : ∃ t : Fin cfg3.N, (cfg3.win 3).flush t = true ∧ i ∈ ((cfg3.win 3).blk t).view.set := by
  have hi0 : (i 0).val < 16 := (i 0).isLt
  have hi1 : (i 1).val < 32000 := (i 1).isLt
  have hN : cfg3.N = 25 := N_3
  obtain ⟨t, ht⟩ : ∃ t : Fin cfg3.N, t.val = (i 1).val / 1280 := ⟨⟨(i 1).val / 1280, by rw [hN]; omega⟩, rfl⟩
  refine ⟨t, flush3_3 t, ?_⟩
  show i ∈ ((View.whole main_v29).slice (win3_3.rect t)).set
  rw [View.set_slice_whole, Rect.mem_set_unit]
  obtain ⟨-, -, -, -, -, -, e30, e31⟩ := idx_facts3 t
  intro a
  match a with
  | ⟨0, _⟩ => show win3_3.index t (0 : Fin 2) * 16 ≤ (i 0).val ∧ (i 0).val < win3_3.index t (0 : Fin 2) * 16 + 16; omega
  | ⟨1, _⟩ => show win3_3.index t (1 : Fin 2) * 1280 ≤ (i 1).val ∧ (i 1).val < win3_3.index t (1 : Fin 2) * 1280 + 1280; omega

end Region

-- The block each point leaves is the projection's block there, and the blocks cover the array.
theorem project_array (V : (c : Dev nD) → (b : Ref sig .tc) → Buf (Elt Ideal) ((c : Thread nD τ).loc b)) (c : Dev nD)
    (dat : Pipeline.Dat τ (Elt Ideal) Unit ℕ (UR sig nD τ) ℕ cfg3 c)
    (hA : ∀ w, dat.A w = V c (Pipeline.arrRef spec3 w))
    (hafter : ∀ t, dat.after 3 t = out3_3 (iblk3 V c 0 t) (iblk3 V c 1 t) (iblk3 V c 2 t)) :
    dat.arrAt 3 cfg3.N = Cert.GruCell.logitsRow (V c main_v23) (V c main_arg15) (V c main_v28) :=
  dat.arrAt_eq_of_cover 3 _ (fun t _ => by
    obtain ⟨-, -, -, -, -, -, e30, e31⟩ := idx_facts3 t
    show (cfg3.win 3).cut (grid3.coords t) (dat.after 3 t) = _
    rw [hafter t]
    unfold out3_3
    rw [View.canon_unit_zero zeros2]
    funext y
    rw [View.read_apply]
    refine tile3_blk V c t _ _ ?_ ?_
    · show win3_3.index t (0 : Fin 2) * 16 + 1 * (y 0).val = (y 0).val; omega
    · show win3_3.index t (1 : Fin 2) * 1280 + 1 * (y 1).val = t.val * 1280 + (y 1).val; omega) cover3

end Cert.KernelIdeal.SegVal

end
-- ==== Proof.Val.HostFns.lean ====
import proofs.«415147_j27384711479321_2_alg».proof.Proof.Gen.KernelIdeal

noncomputable section

namespace Cert.KernelIdeal.SegVal

open Idealize.ShloMosaic Idealize.SL.Sem
open Cert.KernelIdeal Cert.KernelIdeal.Gen

variable {F : FTy → Type} [FloatOps F]

def tokVec (tok : IVec S1x16 32) : IVec S16 32 := shapeCast S16 tok shapeCasts_S1x16_S16

def wrapTok (tok : IVec S1x16 32) : IVec S16x1 32 :=
  broadcastInDim S16x1 ![0] bcast_S16_S16x1_0
    (select (cmpi .slt (tokVec tok) (broadcastInDim S16 ![] bcast_S_S16 (constantI S_ 32 0#32)))
      (addi (tokVec tok) (broadcastInDim S16 ![] bcast_S_S16 (constantI S_ 32 32000#32))) (tokVec tok))

def rowsOf (emb : FVec F S32000x128 .f32) (idx : IVec S16x1 32) : FVec F S16x128 .f32 :=
  Host.gather gather_S32000x128_S16x1_S16x128_1_0_n_n_0_1_1128 emb idx

def relu16 (x : FVec F S16x128 .f32) : FVec F S16x128 .f32 :=
  maximumf x (broadcastInDim S16x128 ![] bcast_S_S16x128 (constant S_ .f32 0x00000000#32))

def embedPlain (tok : IVec S1x16 32) (emb : FVec F S32000x128 .f32) : FVec F S16x128 .f32 :=
  relu16 (rowsOf emb (wrapTok tok))

def inTable (idx : IVec S16x1 32) : IVec S16x128 1 :=
  broadcastInDim S16x128 ![0] bcast_S16_S16x128_0
    (Host.reduce IntOp.andi
      (andi (cmpi .sge idx (broadcastInDim S16x1 ![] bcast_S_S16x1 (constantI S_ 32 0#32)))
        (cmpi .sle idx (broadcastInDim S16x1 ![0, 1] bcast_S1x1_S16x1_0_1
          (broadcastInDim S1x1 ![1] bcast_S1_S1x1_1 (constantI S1 32 31999#32)))))
      (constantI S_ 1 1#1) reducesTo_S16x1_S16_d1 h_S_)

def embedFill (tok : IVec S1x16 32) (emb : FVec F S32000x128 .f32) : FVec F S16x128 .f32 :=
  relu16 (select (inTable (wrapTok tok)) (rowsOf emb (wrapTok tok))
    (broadcastInDim S16x128 ![] bcast_S_S16x128 (constant S_ .f32 0x7FC00000#32)))

def stack3 (a b c : FVec F S16x2048 .f32) : FVec F S3x16x2048 .f32 :=
  concatenate S3x16x2048 0
    [⟨S1x16x2048, broadcastInDim S1x16x2048 ![1, 2] bcast_S16x2048_S1x16x2048_1_2 a⟩,
     ⟨S1x16x2048, broadcastInDim S1x16x2048 ![1, 2] bcast_S16x2048_S1x16x2048_1_2 b⟩,
     ⟨S1x16x2048, broadcastInDim S1x16x2048 ![1, 2] bcast_S16x2048_S1x16x2048_1_2 c⟩]
    concatenates_S1x16x2048_S1x16x2048_S1x16x2048_S3x16x2048_d0

def rowMax (x : FVec F S16x32000 .f32) : FVec F S16 .f32 :=
  maximumf (broadcastInDim S16 ![] bcast_S_S16 (constant S_ .f32 0xFF800000#32))
    (Host.reduce FloatOps.maximumf x (constant S_ .f32 0xFF800000#32) reducesTo_S16x32000_S16_d1 h_S_)

def shifted (x : FVec F S16x32000 .f32) : FVec F S16x32000 .f32 :=
  subf x (broadcastInDim S16x32000 ![0, 1] bcast_S16x1_S16x32000_0_1 (broadcastInDim S16x1 ![0] bcast_S16_S16x1_0 (rowMax x)))

def logSoftmax (x : FVec F S16x32000 .f32) : FVec F S16x32000 .f32 :=
  subf (shifted x)
    (broadcastInDim S16x32000 ![0, 1] bcast_S16x1_S16x32000_0_1
      (Host.log (broadcastInDim S16x1 ![0] bcast_S16_S16x1_0
        (Host.reduceAdd (Host.exp (shifted x)) (constant S_ .f32 0x00000000#32) reducesTo_S16x32000_S16_d1 h_S_))))

end Cert.KernelIdeal.SegVal

end
-- ==== Proof.Val.HostVal.lean ====
import proofs.«415147_j27384711479321_2_alg».proof.Proof.Gen.KernelIdeal.Regions
import proofs.«415147_j27384711479321_2_alg».proof.Proof.Val.HostFns
import proofs.«415147_j27384711479321_2_alg».proof.Proof.GruCell
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.SegVal

open Idealize.ShloMosaic Idealize.ShloMosaic.TcCoe Idealize.SL.Sem
open Cert.KernelIdeal Cert.KernelIdeal.Gen Idealize.ShloMosaic.ValueIdx Cert.GruCell

variable (m : (ℓ : Loc nD τ sig) → Buf (Elt Ideal) ℓ) (outs : Outs (F := Ideal)) (c : Dev nD)

namespace HostVal

/-- `(g, j, k)` of `[3, 2048, K]` and `(2048 g + j, k)` of `[6144, K]` sit at one row-major position. -/
theorem weight {K : Nat} {y : Cube 3 2048 K} {x x' : Mat 6144 K}
    {h : (⟨2, ![6144, K]⟩ : Shape).ShapeCasts ⟨3, ![3, 2048, K]⟩} (e : y = shapeCast ⟨3, ![3, 2048, K]⟩ x h) (e' : x = x')
    (g : Fin 3) (j : Fin 2048) (k : Fin K) : y (ix3 g j k) = x' (ix2 (gateRow g j) k) := by
  subst e e'
  exact shapeCast_apply x h _ _ (by rw [Shape.rowMajor_val_two, Shape.rowMajor_val_three]; rfl)

/-- `(g, j)` of `[3, 2048]` and `2048 g + j` of `[6144]` sit at one row-major position. -/
theorem bias {y : Mat 3 2048} {x x' : Row 6144} {h : (⟨1, ![6144]⟩ : Shape).ShapeCasts ⟨2, ![3, 2048]⟩}
    (e : y = shapeCast ⟨2, ![3, 2048]⟩ x h) (e' : x = x') (g : Fin 3) (j : Fin 2048) :
    y (ix2 g j) = x' (ix1 (gateRow g j)) := by
  subst e e'
  exact shapeCast_apply x h _ _ (by rw [Shape.rowMajor_val_one, Shape.rowMajor_val_two]; rfl)

/-- Slab `l` of a stack of three, its unit axis dropped, reads `(b, k)` at `(l, b, k)`. -/
theorem state {l : Fin 3} {y : Mat 16 2048} {x x' : Cube 3 16 2048}
    {hs : (⟨3, ![3, 16, 2048]⟩ : Shape).Slices ![l.val, 0, 0] ⟨3, ![1, 16, 2048]⟩}
    {hc : (⟨3, ![1, 16, 2048]⟩ : Shape).ShapeCasts ⟨2, ![16, 2048]⟩}
    (e : y = shapeCast ⟨2, ![16, 2048]⟩ (extractStridedSlice ⟨3, ![1, 16, 2048]⟩ ![l.val, 0, 0] x hs) hc) (e' : x = x')
    (b : Fin 16) (k : Fin 2048) : y (ix2 b k) = x' (ix3 l b k) := by
  subst e e'
  refine (shapeCast_1ab_ab_apply _ hc b k).trans (extractStridedSlice_apply _ _ _ _ _ fun ax => ?_)
  match ax with
  | ⟨0, _⟩ => exact (Nat.add_zero _).symm
  | ⟨1, _⟩ => exact (Nat.zero_add _).symm
  | ⟨2, _⟩ => exact (Nat.zero_add _).symm

section Launch
variable (r : Ref sig .tc) (h0 : r ∉ hostOps0_W := by decide) (h1 : r ∉ hostOps0_1_W := by decide)
  (h2 : r ∉ hostOps0_2_W := by decide)
include h0 h1 h2

/-- Each item leaves the contents at a reference it does not write as they were. -/
theorem launch3 : V3 m c r = m ((c.tc : Thread nD τ).loc r) :=
  (V3_of m c r h2).trans <| (V2_of m c r h1).trans <| V1_of m c r h0

variable (h3 : r ∉ hostOps0_3_W := by decide) (h4 : r ∉ ([main_v9] : List (Ref sig .tc)) := by decide)
  (h5 : r ∉ hostOps1_W := by decide) (h6 : r ∉ ([main_v16] : List (Ref sig .tc)) := by decide)
  (h7 : r ∉ hostOps2_W := by decide) (h8 : r ∉ ([main_v23] : List (Ref sig .tc)) := by decide)
include h3 h4 h5 h6 h7 h8

theorem launch : V5 m outs c r = m ((c.tc : Thread nD τ).loc r) ∧ V7 m outs c r = m ((c.tc : Thread nD τ).loc r)
    ∧ V9 m outs c r = m ((c.tc : Thread nD τ).loc r) := by
  have e5 := (V5_of m outs c r h4).trans <| (V4_of m c r h3).trans (launch3 m c r h0 h1 h2)
  have e7 := (V7_of m outs c r h6).trans <| (V6_of m outs c r h5).trans e5
  exact ⟨e5, e7, (V9_of m outs c r h8).trans <| (V8_of m outs c r h7).trans e7⟩

end Launch

section Transports
variable {Val : EltTy → Type} {T : BufTy}

theorem ofBuf_toBuf (t : StableHlo.TRef sig T) (v : T.Contents Val) : t.ofBuf (t.toBuf v) = v := by
  unfold StableHlo.TRef.ofBuf StableHlo.TRef.toBuf
  rw [cast_cast, cast_eq]

theorem toBuf_heq (t : StableHlo.TRef sig T) (v : T.Contents Val) : HEq (t.toBuf v) v := cast_heq _ _

end Transports

section Stretches
variable {F : FTy → Type} [FloatOps F] (W : Valuation τ sig (Elt F))

theorem stretch3_stack :
    (StableHlo.after hostOps3 W (Proc.devRef .tc main_v27) : FVec F S3x16x2048 .f32)
      = stack3 (W (Proc.devRef .tc main_v9)) (W (Proc.devRef .tc main_v16)) (W (Proc.devRef .tc main_v23)) := by
  after_results
  rfl

theorem stretch4_logSoftmax :
    (StableHlo.after hostOps4 W (Proc.devRef .tc main_v30) : FVec F S16x32000 .f32)
      = logSoftmax (W (Proc.devRef .tc main_v29)) := by
  after_results_simp
  simp only [ofBuf_toBuf]
  refine eq_of_heq ((toBuf_heq _ _).trans (heq_of_eq ?_))
  unfold logSoftmax shifted rowMax
  rfl

end Stretches

end HostVal

open HostVal

theorem V4_x : (V4 m c main_v2 : FVec Ideal S16x128 .f32)
    = embedFill (F := Ideal) (m ((c.tc : Thread nD τ).loc main_arg0)) (m ((c.tc : Thread nD τ).loc main_arg2)) := by
  rw [V4_of m c main_v2 (by decide)]
  show (StableHlo.after hostOps0_2 (StableHlo.after hostOps0_1 (StableHlo.after hostOps0 (V0 m c))) main_v2
    : FVec Ideal S16x128 .f32) = _
  after_results_simp
  simp only [ofBuf_toBuf]
  refine eq_of_heq ((toBuf_heq _ _).trans (heq_of_eq ?_))
  unfold embedFill relu16 inTable rowsOf wrapTok tokVec
  rfl

theorem V4_h (b : Fin 16) (k : Fin 2048) :
    V4 m c main_v4 (ix2 b k) = m ((c.tc : Thread nD τ).loc main_arg1) (ix3 0 b k) := by
  rw [← launch3 m c main_arg1]
  show StableHlo.after hostOps0_3 (V3 m c) main_v4 _ = _
  generalize V3 m c = W
  exact state (by after_results; rfl) rfl b k

theorem V4_wih (g : Fin 3) (j : Fin 2048) (k : Fin 128) :
    V4 m c main_v5 (ix3 g j k) = m ((c.tc : Thread nD τ).loc main_arg3) (ix2 (gateRow g j) k) := by
  rw [← launch3 m c main_arg3]
  show StableHlo.after hostOps0_3 (V3 m c) main_v5 _ = _
  generalize V3 m c = W
  exact weight (by after_results; rfl) rfl g j k

theorem V4_whh (g : Fin 3) (j : Fin 2048) (k : Fin 2048) :
    V4 m c main_v6 (ix3 g j k) = m ((c.tc : Thread nD τ).loc main_arg4) (ix2 (gateRow g j) k) := by
  rw [← launch3 m c main_arg4]
  show StableHlo.after hostOps0_3 (V3 m c) main_v6 _ = _
  generalize V3 m c = W
  exact weight (by after_results; rfl) rfl g j k

theorem V4_bih (g : Fin 3) (j : Fin 2048) :
    V4 m c main_v7 (ix2 g j) = m ((c.tc : Thread nD τ).loc main_arg5) (ix1 (gateRow g j)) := by
  rw [← launch3 m c main_arg5]
  show StableHlo.after hostOps0_3 (V3 m c) main_v7 _ = _
  generalize V3 m c = W
  exact bias (by after_results; rfl) rfl g j

theorem V4_bhh (g : Fin 3) (j : Fin 2048) :
    V4 m c main_v8 (ix2 g j) = m ((c.tc : Thread nD τ).loc main_arg6) (ix1 (gateRow g j)) := by
  rw [← launch3 m c main_arg6]
  show StableHlo.after hostOps0_3 (V3 m c) main_v8 _ = _
  generalize V3 m c = W
  exact bias (by after_results; rfl) rfl g j

theorem V6_x : V6 m outs c main_v9 = outs 5 main_v9 c :=
  (V6_of m outs c main_v9 (by decide)).trans (Function.update_self _ _ _)

theorem V6_h (b : Fin 16) (k : Fin 2048) :
    V6 m outs c main_v11 (ix2 b k) = m ((c.tc : Thread nD τ).loc main_arg1) (ix3 1 b k) :=
  state (by after_results; rfl) (launch m outs c main_arg1).1 b k

theorem V6_wih (g : Fin 3) (j : Fin 2048) (k : Fin 2048) :
    V6 m outs c main_v12 (ix3 g j k) = m ((c.tc : Thread nD τ).loc main_arg7) (ix2 (gateRow g j) k) :=
  weight (by after_results; rfl) (launch m outs c main_arg7).1 g j k

theorem V6_whh (g : Fin 3) (j : Fin 2048) (k : Fin 2048) :
    V6 m outs c main_v13 (ix3 g j k) = m ((c.tc : Thread nD τ).loc main_arg8) (ix2 (gateRow g j) k) :=
  weight (by after_results; rfl) (launch m outs c main_arg8).1 g j k

theorem V6_bih (g : Fin 3) (j : Fin 2048) :
    V6 m outs c main_v14 (ix2 g j) = m ((c.tc : Thread nD τ).loc main_arg9) (ix1 (gateRow g j)) :=
  bias (by after_results; rfl) (launch m outs c main_arg9).1 g j

theorem V6_bhh (g : Fin 3) (j : Fin 2048) :
    V6 m outs c main_v15 (ix2 g j) = m ((c.tc : Thread nD τ).loc main_arg10) (ix1 (gateRow g j)) :=
  bias (by after_results; rfl) (launch m outs c main_arg10).1 g j

theorem V8_x : V8 m outs c main_v16 = outs 7 main_v16 c :=
  (V8_of m outs c main_v16 (by decide)).trans (Function.update_self _ _ _)

theorem V8_h (b : Fin 16) (k : Fin 2048) :
    V8 m outs c main_v18 (ix2 b k) = m ((c.tc : Thread nD τ).loc main_arg1) (ix3 2 b k) :=
  state (by after_results; rfl) (launch m outs c main_arg1).2.1 b k

theorem V8_wih (g : Fin 3) (j : Fin 2048) (k : Fin 2048) :
    V8 m outs c main_v19 (ix3 g j k) = m ((c.tc : Thread nD τ).loc main_arg11) (ix2 (gateRow g j) k) :=
  weight (by after_results; rfl) (launch m outs c main_arg11).2.1 g j k

theorem V8_whh (g : Fin 3) (j : Fin 2048) (k : Fin 2048) :
    V8 m outs c main_v20 (ix3 g j k) = m ((c.tc : Thread nD τ).loc main_arg12) (ix2 (gateRow g j) k) :=
  weight (by after_results; rfl) (launch m outs c main_arg12).2.1 g j k

theorem V8_bih (g : Fin 3) (j : Fin 2048) :
    V8 m outs c main_v21 (ix2 g j) = m ((c.tc : Thread nD τ).loc main_arg13) (ix1 (gateRow g j)) :=
  bias (by after_results; rfl) (launch m outs c main_arg13).2.1 g j

theorem V8_bhh (g : Fin 3) (j : Fin 2048) :
    V8 m outs c main_v22 (ix2 g j) = m ((c.tc : Thread nD τ).loc main_arg14) (ix1 (gateRow g j)) :=
  bias (by after_results; rfl) (launch m outs c main_arg14).2.1 g j

theorem V10_x : V10 m outs c main_v23 = outs 9 main_v23 c :=
  (V10_of m outs c main_v23 (by decide)).trans (Function.update_self _ _ _)

theorem V10_w : V10 m outs c main_arg15 = m ((c.tc : Thread nD τ).loc main_arg15) :=
  (V10_of m outs c main_arg15 (by decide)).trans (launch m outs c main_arg15).2.2

theorem V10_b (v : Fin 32000) : V10 m outs c main_v28 (ix2 0 v) = m ((c.tc : Thread nD τ).loc main_arg16) (ix1 v) := by
  rw [← (launch m outs c main_arg16).2.2]
  exact (congrFun (show V10 m outs c main_v28 = shapeCast S1x32000 (V9 m outs c main_arg16) shapeCasts_S32000_S1x32000 by
    after_results; rfl) _).trans (shapeCast_a_1a_apply _ _ 0 v)

theorem V12_hidden : (V12 m outs c main_v27 : FVec Ideal S3x16x2048 .f32)
    = stack3 (F := Ideal) (outs 5 main_v9 c) (outs 7 main_v16 c) (outs 9 main_v23 c) := by
  rw [V12_of m outs c main_v27 (by decide), V11_of m outs c main_v27 (by decide)]
  refine (stretch3_stack (V9 m outs c)).trans ?_
  rw [show V9 m outs c main_v9 = outs 5 main_v9 c from (V9_of m outs c main_v9 (by decide)).trans <|
      (V8_of m outs c main_v9 (by decide)).trans <| (V7_of m outs c main_v9 (by decide)).trans <| V6_x m outs c,
    show V9 m outs c main_v16 = outs 7 main_v16 c from (V9_of m outs c main_v16 (by decide)).trans <| V8_x m outs c,
    show V9 m outs c main_v23 = outs 9 main_v23 c from Function.update_self _ _ _]

theorem V12_logp : (V12 m outs c main_v30 : FVec Ideal S16x32000 .f32) = logSoftmax (F := Ideal) (outs 11 main_v29 c) := by
  refine (stretch4_logSoftmax (V11 m outs c)).trans ?_
  rw [show V11 m outs c main_v29 = outs 11 main_v29 c from Function.update_self _ _ _]

end Cert.KernelIdeal.SegVal

end
-- ==== Proof.Val.Embed.lean ====
import proofs.«415147_j27384711479321_2_alg».proof.Proof.Val.HostFns
import proofs.«415147_j27384711479321_2_alg».proof.Pre_finite_inputs
import proofs.«415147_j27384711479321_2_alg».proof.Proof.Gen.Pre_finite_inputs
import Idealize.ShloMosaic.Lib.ReduceAll
import Idealize.ShloMosaic.Lib.StableHlo.Predicate
import Idealize.ShloMosaic.Lib.ValueIdx

noncomputable section

namespace Cert.KernelIdeal.SegVal

open Idealize.ShloMosaic Idealize.SL.Sem
open Cert.KernelIdeal Cert.KernelIdeal.Gen

def TokensInTable (tok : IVec Cert.KernelIdeal.S1x16 32) : Prop :=
  ∀ i : Cert.KernelIdeal.S1x16.Idx, 0 ≤ (tok i).toInt ∧ (tok i).toInt < 32000

theorem tokensInTable_of_pre (a0 : IVec Cert.Pre_finite_inputs.S1x16 32)
    (a1 : FVec Ideal Cert.Pre_finite_inputs.S3x16x2048 .f32)
    (a2 : FVec Ideal Cert.Pre_finite_inputs.S32000x128 .f32)
    (a3 : FVec Ideal Cert.Pre_finite_inputs.S6144x128 .f32)
    (a4 : FVec Ideal Cert.Pre_finite_inputs.S6144x2048 .f32)
    (a5 : FVec Ideal Cert.Pre_finite_inputs.S6144 .f32)
    (a6 : FVec Ideal Cert.Pre_finite_inputs.S6144 .f32)
    (a7 : FVec Ideal Cert.Pre_finite_inputs.S6144x2048 .f32)
    (a8 : FVec Ideal Cert.Pre_finite_inputs.S6144x2048 .f32)
    (a9 : FVec Ideal Cert.Pre_finite_inputs.S6144 .f32)
    (a10 : FVec Ideal Cert.Pre_finite_inputs.S6144 .f32)
    (a11 : FVec Ideal Cert.Pre_finite_inputs.S6144x2048 .f32)
    (a12 : FVec Ideal Cert.Pre_finite_inputs.S6144x2048 .f32)
    (a13 : FVec Ideal Cert.Pre_finite_inputs.S6144 .f32)
    (a14 : FVec Ideal Cert.Pre_finite_inputs.S6144 .f32)
    (a15 : FVec Ideal Cert.Pre_finite_inputs.S32000x2048 .f32)
    (a16 : FVec Ideal Cert.Pre_finite_inputs.S32000 .f32)
    (hpre : Cert.Pre_finite_inputs.fn (F := Ideal) a0 a1 a2 a3 a4 a5 a6 a7 a8 a9 a10 a11 a12 a13 a14 a15 a16 = fun _ => 1#1) :
    TokensInTable a0 := by
  intro i
  haveI : Subsingleton Cert.Pre_finite_inputs.S_.Idx := ⟨fun a b => funext fun d => d.elim0⟩
  have e := congrFun hpre ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  obtain ⟨hge, hlt⟩ := IntOp.andi_eq_one.1 (Host.reduce_andi_all _ _ _ _ _ (IntOp.andi_eq_one.1 e).2 i)
  exact ⟨IntOp.cmpi_sge.1 hge, IntOp.cmpi_slt.1 hlt⟩

/-- A word in [0, 32000) is not negative, so it is kept as it is, and it passes both range tests. -/
theorem wrapped_word_inTable (w : BitVec 32) (h0 : 0 ≤ w.toInt) (h1 : w.toInt < 32000) :
    IntOp.andi
      (IntOp.cmpi .sge (Scalar.select (IntOp.cmpi .slt w 0#32) (IntOp.addi w 32000#32) w) 0#32)
      (IntOp.cmpi .sle (Scalar.select (IntOp.cmpi .slt w 0#32) (IntOp.addi w 32000#32) w) 31999#32) = 1#1 := by
  have c0 : (0#32 : BitVec 32).toInt = 0 := by decide
  have c1 : (31999#32 : BitVec 32).toInt = 31999 := by decide
  rw [show Scalar.select (IntOp.cmpi .slt w 0#32) (IntOp.addi w 32000#32) w = w from
    if_neg (show ¬ IntOp.cmpi .slt w 0#32 = 1#1 by rw [IntOp.cmpi_slt, c0]; omega)]
  exact IntOp.andi_eq_one.2 ⟨IntOp.cmpi_sge.2 (by rw [c0]; exact h0), IntOp.cmpi_sle.2 (by rw [c1]; omega)⟩

/-- A fold by `and` from 1 over words that are all 1 never leaves 1. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact List.foldl_fixed' (fun i => (congrArg (IntOp.andi 1#1) (hx i)).trans (by decide)) _

theorem inTable_wrapTok (tok : IVec Cert.KernelIdeal.S1x16 32) (h : TokensInTable tok) (i : S16x128.Idx) :
    inTable (wrapTok tok) i = 1#1 := by
  unfold inTable
  simp only [broadcastInDim]
  exact reduce_andi_of_all _ _ _ _ rfl (fun k => wrapped_word_inTable _ (h _).1 (h _).2) _

/-- Inside the table the fill is never selected. -/
theorem embedFill_eq_embedPlain (tok : IVec Cert.KernelIdeal.S1x16 32) (emb : FVec Ideal Cert.KernelIdeal.S32000x128 .f32)
    (h : TokensInTable tok) : embedFill tok emb = embedPlain tok emb := by
  unfold embedFill embedPlain
  refine congrArg relu16 (funext fun i => ?_)
  rw [ValueIdx.select_apply, inTable_wrapTok tok h i, ValueIdx.select_one]

end Cert.KernelIdeal.SegVal

end
-- ==== Proof.RefRead.lean ====
import proofs.«415147_j27384711479321_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S1x16, .i32⟩ : BufTy).Contents (Elt F)) : (⟨S16, .i32⟩ : BufTy).Contents (Elt F) :=
  shapeCast _ (x0) shapeCasts_S1x16_S16

def val_main_c : (⟨S_, .i32⟩ : BufTy).Contents (Elt F) :=
  constantI S_ 32 0#32

def val_main_v1 : (⟨S16, .i32⟩ : BufTy).Contents (Elt F) :=
  broadcastInDim S16 ![] bcast_S_S16 (val_main_c (F := F))

def val_main_v2 (x0 : (⟨S1x16, .i32⟩ : BufTy).Contents (Elt F)) : (⟨S16, .i1⟩ : BufTy).Contents (Elt F) :=
  cmpi .slt (val_main_v0 (F := F) x0) (val_main_v1 (F := F))

def val_main_c_0 : (⟨S_, .i32⟩ : BufTy).Contents (Elt F) :=
  constantI S_ 32 32000#32

def val_main_v3 : (⟨S16, .i32⟩ : BufTy).Contents (Elt F) :=
  broadcastInDim S16 ![] bcast_S_S16 (val_main_c_0 (F := F))

def val_main_v4 (x0 : (⟨S1x16, .i32⟩ : BufTy).Contents (Elt F)) : (⟨S16, .i32⟩ : BufTy).Contents (Elt F) :=
  addi (val_main_v0 (F := F) x0) (val_main_v3 (F := F))

def val_main_v5 (x0 : (⟨S1x16, .i32⟩ : BufTy).Contents (Elt F)) : (⟨S16, .i32⟩ : BufTy).Contents (Elt F) :=
  select (val_main_v2 (F := F) x0) (val_main_v4 (F := F) x0) (val_main_v0 (F := F) x0)

def val_main_v6 (x0 : (⟨S1x16, .i32⟩ : BufTy).Contents (Elt F)) : (⟨S16x1, .i32⟩ : BufTy).Contents (Elt F) :=
  broadcastInDim S16x1 ![0] bcast_S16_S16x1_0 (val_main_v5 (F := F) x0)

def val_main_v7 (x0 : (⟨S1x16, .i32⟩ : BufTy).Contents (Elt F)) (x2 : (⟨S32000x128, .f32⟩ : BufTy).Contents (Elt F)) : (⟨S16x128, .f32⟩ : BufTy).Contents (Elt F) :=
  Host.gather gather_S32000x128_S16x1_S16x128_1_0_n_n_0_1_1128 (x2) (val_main_v6 (F := F) x0)

def val_main_call0_cst : (⟨S_, .f32⟩ : BufTy).Contents (Elt F) :=
  constant S_ .f32 0x00000000#32

def val_main_call0_v0 : (⟨S16x128, .f32⟩ : BufTy).Contents (Elt F) :=
  broadcastInDim S16x128 ![] bcast_S_S16x128 (val_main_call0_cst (F := F))

def val_main_v8 (x0 : (⟨S1x16, .i32⟩ : BufTy).Contents (Elt F)) (x2 : (⟨S32000x128, .f32⟩ : BufTy).Contents (Elt F)) : (⟨S16x128, .f32⟩ : BufTy).Contents (Elt F) :=
  maximumf (val_main_v7 (F := F) x0 x2) (val_main_call0_v0 (F := F))

def val_main_v9 (x1 : (⟨S3x16x2048, .f32⟩ : BufTy).Contents (Elt F)) : (⟨S1x16x2048, .f32⟩ : BufTy).Contents (Elt F) :=
  extractStridedSlice S1x16x2048 ![0, 0, 0] (x1) slices_S3x16x2048_S1x16x2048_0_0_0

def val_main_v10 (x1 : (⟨S3x16x2048, .f32⟩ : BufTy).Contents (Elt F)) : (⟨S16x2048, .f32⟩ : BufTy).Contents (Elt F) :=
  shapeCast _ (val_main_v9 (F := F) x1) shapeCasts_S1x16x2048_S16x2048

def val_main_v11 (x3 : (⟨S6144x128, .f32⟩ : BufTy).Contents (Elt F)) : (⟨S128x6144, .f32⟩ : BufTy).Contents (Elt F) :=
  transpose S128x6144 [1, 0] (x3) transposes_S6144x128_S128x6144_1_0

def val_main_v12 (x0 : (⟨S1x16, .i32⟩ : BufTy).Contents (Elt F)) (x2 : (⟨S32000x128, .f32⟩ : BufTy).Contents (Elt F)) (x3 : (⟨S6144x128, .f32⟩ : BufTy).Contents (Elt F)) : (⟨S16x6144, .f32⟩ : BufTy).Contents (Elt F) :=
  Host.dotGeneral dot_S16x128_S128x6144_S16x6144_1_0_0_1_n_n none (val_main_v8 (F := F) x0 x2) (val_main_v11 (F := F) x3)

def val_main_v13 (x5 : (⟨S6144, .f32⟩ : BufTy).Contents (Elt F)) : (⟨S1x6144, .f32⟩ : BufTy).Contents (Elt F) :=
  broadcastInDim S1x6144 ![1] bcast_S6144_S1x6144_1 (x5)

def val_main_v14 (x5 : (⟨S6144, .f32⟩ : BufTy).Contents (Elt F)) : (⟨S16x6144, .f32⟩ : BufTy).Contents (Elt F) :=
  broadcastInDim S16x6144 ![0, 1] bcast_S1x6144_S16x6144_0_1 (val_main_v13 (F := F) x5)

def val_main_v15 (x0 : (⟨S1x16, .i32⟩ : BufTy).Contents (Elt F)) (x2 : (⟨S32000x128, .f32⟩ : BufTy).Contents (Elt F)) (x3 : (⟨S6144x128, .f32⟩ : BufTy).Contents (Elt F)) (x5 : (⟨S6144, .f32⟩ : BufTy).Contents (Elt F)) : (⟨S16x6144, .f32⟩ : BufTy).Contents (Elt F) :=
  addf (val_main_v12 (F := F) x0 x2 x3) (val_main_v14 (F := F) x5)

def val_main_v16 (x4 : (⟨S6144x2048, .f32⟩ : BufTy).Contents (Elt F)) : (⟨S2048x6144, .f32⟩ : BufTy).Contents (Elt F) :=
  transpose S2048x6144 [1, 0] (x4) transposes_S6144x2048_S2048x6144_1_0

def val_main_v17 (x1 : (⟨S3x16x2048, .f32⟩ : BufTy).Contents (Elt F)) (x4 : (⟨S6144x2048, .f32⟩ : BufTy).Contents (Elt F)) : (⟨S16x6144, .f32⟩ : BufTy).Contents (Elt F) :=
  Host.dotGeneral dot_S16x2048_S2048x6144_S16x6144_1_0_0_1_n_n none (val_main_v10 (F := F) x1) (val_main_v16 (F := F) x4)

def val_main_v18 (x6 : (⟨S6144, .f32⟩ : BufTy).Contents (Elt F)) : (⟨S1x6144, .f32⟩ : BufTy).Contents (Elt F) :=
  broadcastInDim S1x6144 ![1] bcast_S6144_S1x6144_1 (x6)

def val_main_v19 (x6 : (⟨S6144, .f32⟩ : BufTy).Contents (Elt F)) : (⟨S16x6144, .f32⟩ : BufTy).Contents (Elt F) :=
  broadcastInDim S16x6144 ![0, 1] bcast_S1x6144_S16x6144_0_1 (val_main_v18 (F := F) x6)

def val_main_v20 (x1 : (⟨S3x16x2048, .f32⟩ : BufTy).Contents (Elt F)) (x4 : (⟨S6144x2048, .f32⟩ : BufTy).Contents (Elt F)) (x6 : (⟨S6144, .f32⟩ : BufTy).Contents (Elt F)) : (⟨S16x6144, .f32⟩ : BufTy).Contents (Elt F) :=
  addf (val_main_v17 (F := F) x1 x4) (val_main_v19 (F := F) x6)

def val_main_v21 (x0 : (⟨S1x16, .i32⟩ : BufTy).Contents (Elt F)) (x2 : (⟨S32000x128, .f32⟩ : BufTy).Contents (Elt F)) (x3 : (⟨S6144x128, .f32⟩ : BufTy).Contents (Elt F)) (x5 : (⟨S6144, .f32⟩ : BufTy).Contents (Elt F)) : (⟨S16x2048, .f32⟩ : BufTy).Contents (Elt F) :=
  extractStridedSlice S16x2048 ![0, 0] (val_main_v15 (F := F) x0 x2 x3 x5) slices_S16x6144_S16x2048_0_0

def val_main_v22 (x0 : (⟨S1x16, .i32⟩ : BufTy).Contents (Elt F)) (x2 : (⟨S32000x128, .f32⟩ : BufTy).Contents (Elt F)) (x3 : (⟨S6144x128, .f32⟩ : BufTy).Contents (Elt F)) (x5 : (⟨S6144, .f32⟩ : BufTy).Contents (Elt F)) : (⟨S16x2048, .f32⟩ : BufTy).Contents (Elt F) :=
  extractStridedSlice S16x2048 ![0, 2048] (val_main_v15 (F := F) x0 x2 x3 x5) slices_S16x6144_S16x2048_0_2048

def val_main_v23 (x0 : (⟨S1x16, .i32⟩ : BufTy).Contents (Elt F)) (x2 : (⟨S32000x128, .f32⟩ : BufTy).Contents (Elt F)) (x3 : (⟨S6144x128, .f32⟩ : BufTy).Contents (Elt F)) (x5 : (⟨S6144, .f32⟩ : BufTy).Contents (Elt F)) : (⟨S16x2048, .f32⟩ : BufTy).Contents (Elt F) :=
  extractStridedSlice S16x2048 ![0, 4096] (val_main_v15 (F := F) x0 x2 x3 x5) slices_S16x6144_S16x2048_0_4096

def val_main_v24 (x1 : (⟨S3x16x2048, .f32⟩ : BufTy).Contents (Elt F)) (x4 : (⟨S6144x2048, .f32⟩ : BufTy).Contents (Elt F)) (x6 : (⟨S6144, .f32⟩ : BufTy).Contents (Elt F)) : (⟨S16x2048, .f32⟩ : BufTy).Contents (Elt F) :=
  extractStridedSlice S16x2048 ![0, 0] (val_main_v20 (F := F) x1 x4 x6) slices_S16x6144_S16x2048_0_0

def val_main_v25 (x1 : (⟨S3x16x2048, .f32⟩ : BufTy).Contents (Elt F)) (x4 : (⟨S6144x2048, .f32⟩ : BufTy).Contents (Elt F)) (x6 : (⟨S6144, .f32⟩ : BufTy).Contents (Elt F)) : (⟨S16x2048, .f32⟩ : BufTy).Contents (Elt F) :=
  extractStridedSlice S16x2048 ![0, 2048] (val_main_v20 (F := F) x1 x4 x6) slices_S16x6144_S16x2048_0_2048

def val_main_v26 (x1 : (⟨S3x16x2048, .f32⟩ : BufTy).Contents (Elt F)) (x4 : (⟨S6144x2048, .f32⟩ : BufTy).Contents (Elt F)) (x6 : (⟨S6144, .f32⟩ : BufTy).Contents (Elt F)) : (⟨S16x2048, .f32⟩ : BufTy).Contents (Elt F) :=
  extractStridedSlice S16x2048 ![0, 4096] (val_main_v20 (F := F) x1 x4 x6) slices_S16x6144_S16x2048_0_4096

def val_main_v27 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  addf (val_main_v21 (F := F) x0 x2 x3 x5) (val_main_v24 (F := F) x1 x4 x6)

def val_main_v28 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  Host.negf (val_main_v27 (F := F) x0 x1 x2 x3 x4 x5 x6)

def val_main_v29 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  Host.exp (val_main_v28 (F := F) x0 x1 x2 x3 x4 x5 x6)

def val_main_cst : (⟨S_, .f32⟩ : BufTy).Contents (Elt F) :=
  constant S_ .f32 0x3F800000#32

def val_main_v30 : (⟨S16x2048, .f32⟩ : BufTy).Contents (Elt F) :=
  broadcastInDim S16x2048 ![] bcast_S_S16x2048 (val_main_cst (F := F))

def val_main_v31 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  addf (val_main_v30 (F := F)) (val_main_v29 (F := F) x0 x1 x2 x3 x4 x5 x6)

def val_main_cst_1 : (⟨S_, .f32⟩ : BufTy).Contents (Elt F) :=
  constant S_ .f32 0x3F800000#32

def val_main_v32 : (⟨S16x2048, .f32⟩ : BufTy).Contents (Elt F) :=
  broadcastInDim S16x2048 ![] bcast_S_S16x2048 (val_main_cst_1 (F := F))

def val_main_v33 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  Host.divf (val_main_v32 (F := F)) (val_main_v31 (F := F) x0 x1 x2 x3 x4 x5 x6)

def val_main_v34 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  addf (val_main_v22 (F := F) x0 x2 x3 x5) (val_main_v25 (F := F) x1 x4 x6)

def val_main_v35 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  Host.negf (val_main_v34 (F := F) x0 x1 x2 x3 x4 x5 x6)

def val_main_v36 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  Host.exp (val_main_v35 (F := F) x0 x1 x2 x3 x4 x5 x6)

def val_main_cst_2 : (⟨S_, .f32⟩ : BufTy).Contents (Elt F) :=
  constant S_ .f32 0x3F800000#32

def val_main_v37 : (⟨S16x2048, .f32⟩ : BufTy).Contents (Elt F) :=
  broadcastInDim S16x2048 ![] bcast_S_S16x2048 (val_main_cst_2 (F := F))

def val_main_v38 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  addf (val_main_v37 (F := F)) (val_main_v36 (F := F) x0 x1 x2 x3 x4 x5 x6)

def val_main_cst_3 : (⟨S_, .f32⟩ : BufTy).Contents (Elt F) :=
  constant S_ .f32 0x3F800000#32

def val_main_v39 : (⟨S16x2048, .f32⟩ : BufTy).Contents (Elt F) :=
  broadcastInDim S16x2048 ![] bcast_S_S16x2048 (val_main_cst_3 (F := F))

def val_main_v40 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  Host.divf (val_main_v39 (F := F)) (val_main_v38 (F := F) x0 x1 x2 x3 x4 x5 x6)

def val_main_v41 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  mulf (val_main_v33 (F := F) x0 x1 x2 x3 x4 x5 x6) (val_main_v26 (F := F) x1 x4 x6)

def val_main_v42 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  addf (val_main_v23 (F := F) x0 x2 x3 x5) (val_main_v41 (F := F) x0 x1 x2 x3 x4 x5 x6)

def val_main_v43 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  Host.tanh (val_main_v42 (F := F) x0 x1 x2 x3 x4 x5 x6)

def val_main_cst_4 : (⟨S_, .f32⟩ : BufTy).Contents (Elt F) :=
  constant S_ .f32 0x3F800000#32

def val_main_v44 : (⟨S16x2048, .f32⟩ : BufTy).Contents (Elt F) :=
  broadcastInDim S16x2048 ![] bcast_S_S16x2048 (val_main_cst_4 (F := F))

def val_main_v45 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  subf (val_main_v44 (F := F)) (val_main_v40 (F := F) x0 x1 x2 x3 x4 x5 x6)

def val_main_v46 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  mulf (val_main_v45 (F := F) x0 x1 x2 x3 x4 x5 x6) (val_main_v43 (F := F) x0 x1 x2 x3 x4 x5 x6)

def val_main_v47 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  mulf (val_main_v40 (F := F) x0 x1 x2 x3 x4 x5 x6) (val_main_v10 (F := F) x1)

def val_main_v48 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S16x2048, .f32⟩ : BufTy).Contents (Elt F) :=
  addf (val_main_v46 (F := F) x0 x1 x2 x3 x4 x5 x6) (val_main_v47 (F := F) x0 x1 x2 x3 x4 x5 x6)

def val_main_v49 (x1 : (⟨S3x16x2048, .f32⟩ : BufTy).Contents (Elt F)) : (⟨S1x16x2048, .f32⟩ : BufTy).Contents (Elt F) :=
  extractStridedSlice S1x16x2048 ![1, 0, 0] (x1) slices_S3x16x2048_S1x16x2048_1_0_0

def val_main_v50 (x1 : (⟨S3x16x2048, .f32⟩ : BufTy).Contents (Elt F)) : (⟨S16x2048, .f32⟩ : BufTy).Contents (Elt F) :=
  shapeCast _ (val_main_v49 (F := F) x1) shapeCasts_S1x16x2048_S16x2048

def val_main_v51 (x7 : (⟨S6144x2048, .f32⟩ : BufTy).Contents (Elt F)) : (⟨S2048x6144, .f32⟩ : BufTy).Contents (Elt F) :=
  transpose S2048x6144 [1, 0] (x7) transposes_S6144x2048_S2048x6144_1_0

def val_main_v52 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 : (⟨S6144x2048, .f32⟩ : BufTy).Contents (Elt F)) : (⟨S16x6144, .f32⟩ : BufTy).Contents (Elt F) :=
  Host.dotGeneral dot_S16x2048_S2048x6144_S16x6144_1_0_0_1_n_n none (val_main_v48 (F := F) x0 x1 x2 x3 x4 x5 x6) (val_main_v51 (F := F) x7)

def val_main_v53 (x9 : (⟨S6144, .f32⟩ : BufTy).Contents (Elt F)) : (⟨S1x6144, .f32⟩ : BufTy).Contents (Elt F) :=
  broadcastInDim S1x6144 ![1] bcast_S6144_S1x6144_1 (x9)

def val_main_v54 (x9 : (⟨S6144, .f32⟩ : BufTy).Contents (Elt F)) : (⟨S16x6144, .f32⟩ : BufTy).Contents (Elt F) :=
  broadcastInDim S16x6144 ![0, 1] bcast_S1x6144_S16x6144_0_1 (val_main_v53 (F := F) x9)

def val_main_v55 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 : (⟨S6144x2048, .f32⟩ : BufTy).Contents (Elt F)) (x9 : (⟨S6144, .f32⟩ : BufTy).Contents (Elt F)) : (⟨S16x6144, .f32⟩ : BufTy).Contents (Elt F) :=
  addf (val_main_v52 (F := F) x0 x1 x2 x3 x4 x5 x6 x7) (val_main_v54 (F := F) x9)

def val_main_v56 (x8 : (⟨S6144x2048, .f32⟩ : BufTy).Contents (Elt F)) : (⟨S2048x6144, .f32⟩ : BufTy).Contents (Elt F) :=
  transpose S2048x6144 [1, 0] (x8) transposes_S6144x2048_S2048x6144_1_0

def val_main_v57 (x1 : (⟨S3x16x2048, .f32⟩ : BufTy).Contents (Elt F)) (x8 : (⟨S6144x2048, .f32⟩ : BufTy).Contents (Elt F)) : (⟨S16x6144, .f32⟩ : BufTy).Contents (Elt F) :=
  Host.dotGeneral dot_S16x2048_S2048x6144_S16x6144_1_0_0_1_n_n none (val_main_v50 (F := F) x1) (val_main_v56 (F := F) x8)

def val_main_v58 (x10 : (⟨S6144, .f32⟩ : BufTy).Contents (Elt F)) : (⟨S1x6144, .f32⟩ : BufTy).Contents (Elt F) :=
  broadcastInDim S1x6144 ![1] bcast_S6144_S1x6144_1 (x10)

def val_main_v59 (x10 : (⟨S6144, .f32⟩ : BufTy).Contents (Elt F)) : (⟨S16x6144, .f32⟩ : BufTy).Contents (Elt F) :=
  broadcastInDim S16x6144 ![0, 1] bcast_S1x6144_S16x6144_0_1 (val_main_v58 (F := F) x10)

def val_main_v60 (x1 : (⟨S3x16x2048, .f32⟩ : BufTy).Contents (Elt F)) (x8 : (⟨S6144x2048, .f32⟩ : BufTy).Contents (Elt F)) (x10 : (⟨S6144, .f32⟩ : BufTy).Contents (Elt F)) : (⟨S16x6144, .f32⟩ : BufTy).Contents (Elt F) :=
  addf (val_main_v57 (F := F) x1 x8) (val_main_v59 (F := F) x10)

def val_main_v61 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 : (⟨S6144x2048, .f32⟩ : BufTy).Contents (Elt F)) (x9 : (⟨S6144, .f32⟩ : BufTy).Contents (Elt F)) : (⟨S16x2048, .f32⟩ : BufTy).Contents (Elt F) :=
  extractStridedSlice S16x2048 ![0, 0] (val_main_v55 (F := F) x0 x1 x2 x3 x4 x5 x6 x7 x9) slices_S16x6144_S16x2048_0_0

def val_main_v62 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 : (⟨S6144x2048, .f32⟩ : BufTy).Contents (Elt F)) (x9 : (⟨S6144, .f32⟩ : BufTy).Contents (Elt F)) : (⟨S16x2048, .f32⟩ : BufTy).Contents (Elt F) :=
  extractStridedSlice S16x2048 ![0, 2048] (val_main_v55 (F := F) x0 x1 x2 x3 x4 x5 x6 x7 x9) slices_S16x6144_S16x2048_0_2048

def val_main_v63 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 : (⟨S6144x2048, .f32⟩ : BufTy).Contents (Elt F)) (x9 : (⟨S6144, .f32⟩ : BufTy).Contents (Elt F)) : (⟨S16x2048, .f32⟩ : BufTy).Contents (Elt F) :=
  extractStridedSlice S16x2048 ![0, 4096] (val_main_v55 (F := F) x0 x1 x2 x3 x4 x5 x6 x7 x9) slices_S16x6144_S16x2048_0_4096

def val_main_v64 (x1 : (⟨S3x16x2048, .f32⟩ : BufTy).Contents (Elt F)) (x8 : (⟨S6144x2048, .f32⟩ : BufTy).Contents (Elt F)) (x10 : (⟨S6144, .f32⟩ : BufTy).Contents (Elt F)) : (⟨S16x2048, .f32⟩ : BufTy).Contents (Elt F) :=
  extractStridedSlice S16x2048 ![0, 0] (val_main_v60 (F := F) x1 x8 x10) slices_S16x6144_S16x2048_0_0

def val_main_v65 (x1 : (⟨S3x16x2048, .f32⟩ : BufTy).Contents (Elt F)) (x8 : (⟨S6144x2048, .f32⟩ : BufTy).Contents (Elt F)) (x10 : (⟨S6144, .f32⟩ : BufTy).Contents (Elt F)) : (⟨S16x2048, .f32⟩ : BufTy).Contents (Elt F) :=
  extractStridedSlice S16x2048 ![0, 2048] (val_main_v60 (F := F) x1 x8 x10) slices_S16x6144_S16x2048_0_2048

def val_main_v66 (x1 : (⟨S3x16x2048, .f32⟩ : BufTy).Contents (Elt F)) (x8 : (⟨S6144x2048, .f32⟩ : BufTy).Contents (Elt F)) (x10 : (⟨S6144, .f32⟩ : BufTy).Contents (Elt F)) : (⟨S16x2048, .f32⟩ : BufTy).Contents (Elt F) :=
  extractStridedSlice S16x2048 ![0, 4096] (val_main_v60 (F := F) x1 x8 x10) slices_S16x6144_S16x2048_0_4096

def val_main_v67 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  addf (val_main_v61 (F := F) x0 x1 x2 x3 x4 x5 x6 x7 x9) (val_main_v64 (F := F) x1 x8 x10)

def val_main_v68 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  Host.negf (val_main_v67 (F := F) x0 x1 x2 x3 x4 x5 x6 x7 x8 x9 x10)

def val_main_v69 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  Host.exp (val_main_v68 (F := F) x0 x1 x2 x3 x4 x5 x6 x7 x8 x9 x10)

def val_main_cst_5 : (⟨S_, .f32⟩ : BufTy).Contents (Elt F) :=
  constant S_ .f32 0x3F800000#32

def val_main_v70 : (⟨S16x2048, .f32⟩ : BufTy).Contents (Elt F) :=
  broadcastInDim S16x2048 ![] bcast_S_S16x2048 (val_main_cst_5 (F := F))

def val_main_v71 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  addf (val_main_v70 (F := F)) (val_main_v69 (F := F) x0 x1 x2 x3 x4 x5 x6 x7 x8 x9 x10)

def val_main_cst_6 : (⟨S_, .f32⟩ : BufTy).Contents (Elt F) :=
  constant S_ .f32 0x3F800000#32

def val_main_v72 : (⟨S16x2048, .f32⟩ : BufTy).Contents (Elt F) :=
  broadcastInDim S16x2048 ![] bcast_S_S16x2048 (val_main_cst_6 (F := F))

def val_main_v73 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  Host.divf (val_main_v72 (F := F)) (val_main_v71 (F := F) x0 x1 x2 x3 x4 x5 x6 x7 x8 x9 x10)

def val_main_v74 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  addf (val_main_v62 (F := F) x0 x1 x2 x3 x4 x5 x6 x7 x9) (val_main_v65 (F := F) x1 x8 x10)

def val_main_v75 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  Host.negf (val_main_v74 (F := F) x0 x1 x2 x3 x4 x5 x6 x7 x8 x9 x10)

def val_main_v76 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  Host.exp (val_main_v75 (F := F) x0 x1 x2 x3 x4 x5 x6 x7 x8 x9 x10)

def val_main_cst_7 : (⟨S_, .f32⟩ : BufTy).Contents (Elt F) :=
  constant S_ .f32 0x3F800000#32

def val_main_v77 : (⟨S16x2048, .f32⟩ : BufTy).Contents (Elt F) :=
  broadcastInDim S16x2048 ![] bcast_S_S16x2048 (val_main_cst_7 (F := F))

def val_main_v78 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  addf (val_main_v77 (F := F)) (val_main_v76 (F := F) x0 x1 x2 x3 x4 x5 x6 x7 x8 x9 x10)

def val_main_cst_8 : (⟨S_, .f32⟩ : BufTy).Contents (Elt F) :=
  constant S_ .f32 0x3F800000#32

def val_main_v79 : (⟨S16x2048, .f32⟩ : BufTy).Contents (Elt F) :=
  broadcastInDim S16x2048 ![] bcast_S_S16x2048 (val_main_cst_8 (F := F))

def val_main_v80 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  Host.divf (val_main_v79 (F := F)) (val_main_v78 (F := F) x0 x1 x2 x3 x4 x5 x6 x7 x8 x9 x10)

def val_main_v81 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  mulf (val_main_v73 (F := F) x0 x1 x2 x3 x4 x5 x6 x7 x8 x9 x10) (val_main_v66 (F := F) x1 x8 x10)

def val_main_v82 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  addf (val_main_v63 (F := F) x0 x1 x2 x3 x4 x5 x6 x7 x9) (val_main_v81 (F := F) x0 x1 x2 x3 x4 x5 x6 x7 x8 x9 x10)

def val_main_v83 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  Host.tanh (val_main_v82 (F := F) x0 x1 x2 x3 x4 x5 x6 x7 x8 x9 x10)

def val_main_cst_9 : (⟨S_, .f32⟩ : BufTy).Contents (Elt F) :=
  constant S_ .f32 0x3F800000#32

def val_main_v84 : (⟨S16x2048, .f32⟩ : BufTy).Contents (Elt F) :=
  broadcastInDim S16x2048 ![] bcast_S_S16x2048 (val_main_cst_9 (F := F))

def val_main_v85 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  subf (val_main_v84 (F := F)) (val_main_v80 (F := F) x0 x1 x2 x3 x4 x5 x6 x7 x8 x9 x10)

def val_main_v86 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  mulf (val_main_v85 (F := F) x0 x1 x2 x3 x4 x5 x6 x7 x8 x9 x10) (val_main_v83 (F := F) x0 x1 x2 x3 x4 x5 x6 x7 x8 x9 x10)

def val_main_v87 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  mulf (val_main_v80 (F := F) x0 x1 x2 x3 x4 x5 x6 x7 x8 x9 x10) (val_main_v50 (F := F) x1)

def val_main_v88 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S16x2048, .f32⟩ : BufTy).Contents (Elt F) :=
  addf (val_main_v86 (F := F) x0 x1 x2 x3 x4 x5 x6 x7 x8 x9 x10) (val_main_v87 (F := F) x0 x1 x2 x3 x4 x5 x6 x7 x8 x9 x10)

def val_main_v89 (x1 : (⟨S3x16x2048, .f32⟩ : BufTy).Contents (Elt F)) : (⟨S1x16x2048, .f32⟩ : BufTy).Contents (Elt F) :=
  extractStridedSlice S1x16x2048 ![2, 0, 0] (x1) slices_S3x16x2048_S1x16x2048_2_0_0

def val_main_v90 (x1 : (⟨S3x16x2048, .f32⟩ : BufTy).Contents (Elt F)) : (⟨S16x2048, .f32⟩ : BufTy).Contents (Elt F) :=
  shapeCast _ (val_main_v89 (F := F) x1) shapeCasts_S1x16x2048_S16x2048

def val_main_v91 (x11 : (⟨S6144x2048, .f32⟩ : BufTy).Contents (Elt F)) : (⟨S2048x6144, .f32⟩ : BufTy).Contents (Elt F) :=
  transpose S2048x6144 [1, 0] (x11) transposes_S6144x2048_S2048x6144_1_0

def val_main_v92 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 : (⟨S6144x2048, .f32⟩ : BufTy).Contents (Elt F)) : (⟨S16x6144, .f32⟩ : BufTy).Contents (Elt F) :=
  Host.dotGeneral dot_S16x2048_S2048x6144_S16x6144_1_0_0_1_n_n none (val_main_v88 (F := F) x0 x1 x2 x3 x4 x5 x6 x7 x8 x9 x10) (val_main_v91 (F := F) x11)

def val_main_v93 (x13 : (⟨S6144, .f32⟩ : BufTy).Contents (Elt F)) : (⟨S1x6144, .f32⟩ : BufTy).Contents (Elt F) :=
  broadcastInDim S1x6144 ![1] bcast_S6144_S1x6144_1 (x13)

def val_main_v94 (x13 : (⟨S6144, .f32⟩ : BufTy).Contents (Elt F)) : (⟨S16x6144, .f32⟩ : BufTy).Contents (Elt F) :=
  broadcastInDim S16x6144 ![0, 1] bcast_S1x6144_S16x6144_0_1 (val_main_v93 (F := F) x13)

def val_main_v95 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 : (⟨S6144x2048, .f32⟩ : BufTy).Contents (Elt F)) (x13 : (⟨S6144, .f32⟩ : BufTy).Contents (Elt F)) : (⟨S16x6144, .f32⟩ : BufTy).Contents (Elt F) :=
  addf (val_main_v92 (F := F) x0 x1 x2 x3 x4 x5 x6 x7 x8 x9 x10 x11) (val_main_v94 (F := F) x13)

def val_main_v96 (x12 : (⟨S6144x2048, .f32⟩ : BufTy).Contents (Elt F)) : (⟨S2048x6144, .f32⟩ : BufTy).Contents (Elt F) :=
  transpose S2048x6144 [1, 0] (x12) transposes_S6144x2048_S2048x6144_1_0

def val_main_v97 (x1 : (⟨S3x16x2048, .f32⟩ : BufTy).Contents (Elt F)) (x12 : (⟨S6144x2048, .f32⟩ : BufTy).Contents (Elt F)) : (⟨S16x6144, .f32⟩ : BufTy).Contents (Elt F) :=
  Host.dotGeneral dot_S16x2048_S2048x6144_S16x6144_1_0_0_1_n_n none (val_main_v90 (F := F) x1) (val_main_v96 (F := F) x12)

def val_main_v98 (x14 : (⟨S6144, .f32⟩ : BufTy).Contents (Elt F)) : (⟨S1x6144, .f32⟩ : BufTy).Contents (Elt F) :=
  broadcastInDim S1x6144 ![1] bcast_S6144_S1x6144_1 (x14)

def val_main_v99 (x14 : (⟨S6144, .f32⟩ : BufTy).Contents (Elt F)) : (⟨S16x6144, .f32⟩ : BufTy).Contents (Elt F) :=
  broadcastInDim S16x6144 ![0, 1] bcast_S1x6144_S16x6144_0_1 (val_main_v98 (F := F) x14)

def val_main_v100 (x1 : (⟨S3x16x2048, .f32⟩ : BufTy).Contents (Elt F)) (x12 : (⟨S6144x2048, .f32⟩ : BufTy).Contents (Elt F)) (x14 : (⟨S6144, .f32⟩ : BufTy).Contents (Elt F)) : (⟨S16x6144, .f32⟩ : BufTy).Contents (Elt F) :=
  addf (val_main_v97 (F := F) x1 x12) (val_main_v99 (F := F) x14)

def val_main_v101 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 : (⟨S6144x2048, .f32⟩ : BufTy).Contents (Elt F)) (x13 : (⟨S6144, .f32⟩ : BufTy).Contents (Elt F)) : (⟨S16x2048, .f32⟩ : BufTy).Contents (Elt F) :=
  extractStridedSlice S16x2048 ![0, 0] (val_main_v95 (F := F) x0 x1 x2 x3 x4 x5 x6 x7 x8 x9 x10 x11 x13) slices_S16x6144_S16x2048_0_0

def val_main_v102 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 : (⟨S6144x2048, .f32⟩ : BufTy).Contents (Elt F)) (x13 : (⟨S6144, .f32⟩ : BufTy).Contents (Elt F)) : (⟨S16x2048, .f32⟩ : BufTy).Contents (Elt F) :=
  extractStridedSlice S16x2048 ![0, 2048] (val_main_v95 (F := F) x0 x1 x2 x3 x4 x5 x6 x7 x8 x9 x10 x11 x13) slices_S16x6144_S16x2048_0_2048

def val_main_v103 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 : (⟨S6144x2048, .f32⟩ : BufTy).Contents (Elt F)) (x13 : (⟨S6144, .f32⟩ : BufTy).Contents (Elt F)) : (⟨S16x2048, .f32⟩ : BufTy).Contents (Elt F) :=
  extractStridedSlice S16x2048 ![0, 4096] (val_main_v95 (F := F) x0 x1 x2 x3 x4 x5 x6 x7 x8 x9 x10 x11 x13) slices_S16x6144_S16x2048_0_4096

def val_main_v104 (x1 : (⟨S3x16x2048, .f32⟩ : BufTy).Contents (Elt F)) (x12 : (⟨S6144x2048, .f32⟩ : BufTy).Contents (Elt F)) (x14 : (⟨S6144, .f32⟩ : BufTy).Contents (Elt F)) : (⟨S16x2048, .f32⟩ : BufTy).Contents (Elt F) :=
  extractStridedSlice S16x2048 ![0, 0] (val_main_v100 (F := F) x1 x12 x14) slices_S16x6144_S16x2048_0_0

def val_main_v105 (x1 : (⟨S3x16x2048, .f32⟩ : BufTy).Contents (Elt F)) (x12 : (⟨S6144x2048, .f32⟩ : BufTy).Contents (Elt F)) (x14 : (⟨S6144, .f32⟩ : BufTy).Contents (Elt F)) : (⟨S16x2048, .f32⟩ : BufTy).Contents (Elt F) :=
  extractStridedSlice S16x2048 ![0, 2048] (val_main_v100 (F := F) x1 x12 x14) slices_S16x6144_S16x2048_0_2048

def val_main_v106 (x1 : (⟨S3x16x2048, .f32⟩ : BufTy).Contents (Elt F)) (x12 : (⟨S6144x2048, .f32⟩ : BufTy).Contents (Elt F)) (x14 : (⟨S6144, .f32⟩ : BufTy).Contents (Elt F)) : (⟨S16x2048, .f32⟩ : BufTy).Contents (Elt F) :=
  extractStridedSlice S16x2048 ![0, 4096] (val_main_v100 (F := F) x1 x12 x14) slices_S16x6144_S16x2048_0_4096

def val_main_v107 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  addf (val_main_v101 (F := F) x0 x1 x2 x3 x4 x5 x6 x7 x8 x9 x10 x11 x13) (val_main_v104 (F := F) x1 x12 x14)

def val_main_v108 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  Host.negf (val_main_v107 (F := F) x0 x1 x2 x3 x4 x5 x6 x7 x8 x9 x10 x11 x12 x13 x14)

def val_main_v109 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  Host.exp (val_main_v108 (F := F) x0 x1 x2 x3 x4 x5 x6 x7 x8 x9 x10 x11 x12 x13 x14)

def val_main_cst_10 : (⟨S_, .f32⟩ : BufTy).Contents (Elt F) :=
  constant S_ .f32 0x3F800000#32

def val_main_v110 : (⟨S16x2048, .f32⟩ : BufTy).Contents (Elt F) :=
  broadcastInDim S16x2048 ![] bcast_S_S16x2048 (val_main_cst_10 (F := F))

def val_main_v111 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  addf (val_main_v110 (F := F)) (val_main_v109 (F := F) x0 x1 x2 x3 x4 x5 x6 x7 x8 x9 x10 x11 x12 x13 x14)

def val_main_cst_11 : (⟨S_, .f32⟩ : BufTy).Contents (Elt F) :=
  constant S_ .f32 0x3F800000#32

def val_main_v112 : (⟨S16x2048, .f32⟩ : BufTy).Contents (Elt F) :=
  broadcastInDim S16x2048 ![] bcast_S_S16x2048 (val_main_cst_11 (F := F))

def val_main_v113 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  Host.divf (val_main_v112 (F := F)) (val_main_v111 (F := F) x0 x1 x2 x3 x4 x5 x6 x7 x8 x9 x10 x11 x12 x13 x14)

def val_main_v114 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  addf (val_main_v102 (F := F) x0 x1 x2 x3 x4 x5 x6 x7 x8 x9 x10 x11 x13) (val_main_v105 (F := F) x1 x12 x14)

def val_main_v115 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  Host.negf (val_main_v114 (F := F) x0 x1 x2 x3 x4 x5 x6 x7 x8 x9 x10 x11 x12 x13 x14)

def val_main_v116 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  Host.exp (val_main_v115 (F := F) x0 x1 x2 x3 x4 x5 x6 x7 x8 x9 x10 x11 x12 x13 x14)

def val_main_cst_12 : (⟨S_, .f32⟩ : BufTy).Contents (Elt F) :=
  constant S_ .f32 0x3F800000#32

def val_main_v117 : (⟨S16x2048, .f32⟩ : BufTy).Contents (Elt F) :=
  broadcastInDim S16x2048 ![] bcast_S_S16x2048 (val_main_cst_12 (F := F))

def val_main_v118 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  addf (val_main_v117 (F := F)) (val_main_v116 (F := F) x0 x1 x2 x3 x4 x5 x6 x7 x8 x9 x10 x11 x12 x13 x14)

def val_main_cst_13 : (⟨S_, .f32⟩ : BufTy).Contents (Elt F) :=
  constant S_ .f32 0x3F800000#32

def val_main_v119 : (⟨S16x2048, .f32⟩ : BufTy).Contents (Elt F) :=
  broadcastInDim S16x2048 ![] bcast_S_S16x2048 (val_main_cst_13 (F := F))

def val_main_v120 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  Host.divf (val_main_v119 (F := F)) (val_main_v118 (F := F) x0 x1 x2 x3 x4 x5 x6 x7 x8 x9 x10 x11 x12 x13 x14)

def val_main_v121 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  mulf (val_main_v113 (F := F) x0 x1 x2 x3 x4 x5 x6 x7 x8 x9 x10 x11 x12 x13 x14) (val_main_v106 (F := F) x1 x12 x14)

def val_main_v122 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  addf (val_main_v103 (F := F) x0 x1 x2 x3 x4 x5 x6 x7 x8 x9 x10 x11 x13) (val_main_v121 (F := F) x0 x1 x2 x3 x4 x5 x6 x7 x8 x9 x10 x11 x12 x13 x14)

def val_main_v123 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  Host.tanh (val_main_v122 (F := F) x0 x1 x2 x3 x4 x5 x6 x7 x8 x9 x10 x11 x12 x13 x14)

def val_main_cst_14 : (⟨S_, .f32⟩ : BufTy).Contents (Elt F) :=
  constant S_ .f32 0x3F800000#32

def val_main_v124 : (⟨S16x2048, .f32⟩ : BufTy).Contents (Elt F) :=
  broadcastInDim S16x2048 ![] bcast_S_S16x2048 (val_main_cst_14 (F := F))

def val_main_v125 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  subf (val_main_v124 (F := F)) (val_main_v120 (F := F) x0 x1 x2 x3 x4 x5 x6 x7 x8 x9 x10 x11 x12 x13 x14)

def val_main_v126 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  mulf (val_main_v125 (F := F) x0 x1 x2 x3 x4 x5 x6 x7 x8 x9 x10 x11 x12 x13 x14) (val_main_v123 (F := F) x0 x1 x2 x3 x4 x5 x6 x7 x8 x9 x10 x11 x12 x13 x14)

def val_main_v127 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  mulf (val_main_v120 (F := F) x0 x1 x2 x3 x4 x5 x6 x7 x8 x9 x10 x11 x12 x13 x14) (val_main_v90 (F := F) x1)

def val_main_v128 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S16x2048, .f32⟩ : BufTy).Contents (Elt F) :=
  addf (val_main_v126 (F := F) x0 x1 x2 x3 x4 x5 x6 x7 x8 x9 x10 x11 x12 x13 x14) (val_main_v127 (F := F) x0 x1 x2 x3 x4 x5 x6 x7 x8 x9 x10 x11 x12 x13 x14)

def val_main_v129 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) : (⟨S1x16x2048, .f32⟩ : BufTy).Contents (Elt F) :=
  broadcastInDim S1x16x2048 ![1, 2] bcast_S16x2048_S1x16x2048_1_2 (val_main_v48 (F := F) x0 x1 x2 x3 x4 x5 x6)

def val_main_v130 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) : (⟨S1x16x2048, .f32⟩ : BufTy).Contents (Elt F) :=
  broadcastInDim S1x16x2048 ![1, 2] bcast_S16x2048_S1x16x2048_1_2 (val_main_v88 (F := F) x0 x1 x2 x3 x4 x5 x6 x7 x8 x9 x10)

def val_main_v131 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S1x16x2048, .f32⟩ : BufTy).Contents (Elt F) :=
  broadcastInDim S1x16x2048 ![1, 2] bcast_S16x2048_S1x16x2048_1_2 (val_main_v128 (F := F) x0 x1 x2 x3 x4 x5 x6 x7 x8 x9 x10 x11 x12 x13 x14)

def val_main_v132 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) : (⟨S3x16x2048, .f32⟩ : BufTy).Contents (Elt F) :=
  concatenate S3x16x2048 0 [⟨S1x16x2048, (val_main_v129 (F := F) x0 x1 x2 x3 x4 x5 x6)⟩, ⟨S1x16x2048, (val_main_v130 (F := F) x0 x1 x2 x3 x4 x5 x6 x7 x8 x9 x10)⟩, ⟨S1x16x2048, (val_main_v131 (F := F) x0 x1 x2 x3 x4 x5 x6 x7 x8 x9 x10 x11 x12 x13 x14)⟩] concatenates_S1x16x2048_S1x16x2048_S1x16x2048_S3x16x2048_d0

def val_main_v133 (x15 : (⟨S32000x2048, .f32⟩ : BufTy).Contents (Elt F)) : (⟨S2048x32000, .f32⟩ : BufTy).Contents (Elt F) :=
  transpose S2048x32000 [1, 0] (x15) transposes_S32000x2048_S2048x32000_1_0

def val_main_v134 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) : (⟨S16x32000, .f32⟩ : BufTy).Contents (Elt F) :=
  Host.dotGeneral dot_S16x2048_S2048x32000_S16x32000_1_0_0_1_n_n none (val_main_v128 (F := F) x0 x1 x2 x3 x4 x5 x6 x7 x8 x9 x10 x11 x12 x13 x14) (val_main_v133 (F := F) x15)

def val_main_v135 (x16 : (⟨S32000, .f32⟩ : BufTy).Contents (Elt F)) : (⟨S1x32000, .f32⟩ : BufTy).Contents (Elt F) :=
  broadcastInDim S1x32000 ![1] bcast_S32000_S1x32000_1 (x16)

def val_main_v136 (x16 : (⟨S32000, .f32⟩ : BufTy).Contents (Elt F)) : (⟨S16x32000, .f32⟩ : BufTy).Contents (Elt F) :=
  broadcastInDim S16x32000 ![0, 1] bcast_S1x32000_S16x32000_0_1 (val_main_v135 (F := F) x16)

def val_main_v137 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x32000, .f32⟩ : BufTy).Contents (Elt F) :=
  addf (val_main_v134 (F := F) x0 x1 x2 x3 x4 x5 x6 x7 x8 x9 x10 x11 x12 x13 x14 x15) (val_main_v136 (F := F) x16)

def val_main_call1_cst : (⟨S_, .f32⟩ : BufTy).Contents (Elt F) :=
  constant S_ .f32 0xFF800000#32

def val_main_call1_v0 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16, .f32⟩ : BufTy).Contents (Elt F) :=
  Host.reduce FloatOps.maximumf (val_main_v137 (F := F) x0 x1 x2 x3 x4 x5 x6 x7 x8 x9 x10 x11 x12 x13 x14 x15 x16) (val_main_call1_cst (F := F)) reducesTo_S16x32000_S16_d1 h_S_

def val_main_call1_cst_0 : (⟨S_, .f32⟩ : BufTy).Contents (Elt F) :=
  constant S_ .f32 0xFF800000#32

def val_main_call1_v1 : (⟨S16, .f32⟩ : BufTy).Contents (Elt F) :=
  broadcastInDim S16 ![] bcast_S_S16 (val_main_call1_cst_0 (F := F))

def val_main_call1_v2 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16, .f32⟩ : BufTy).Contents (Elt F) :=
  maximumf (val_main_call1_v1 (F := F)) (val_main_call1_v0 (F := F) x0 x1 x2 x3 x4 x5 x6 x7 x8 x9 x10 x11 x12 x13 x14 x15 x16)

def val_main_call1_v3 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x1, .f32⟩ : BufTy).Contents (Elt F) :=
  broadcastInDim S16x1 ![0] bcast_S16_S16x1_0 (val_main_call1_v2 (F := F) x0 x1 x2 x3 x4 x5 x6 x7 x8 x9 x10 x11 x12 x13 x14 x15 x16)

def val_main_call1_v4 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x32000, .f32⟩ : BufTy).Contents (Elt F) :=
  broadcastInDim S16x32000 ![0, 1] bcast_S16x1_S16x32000_0_1 (val_main_call1_v3 (F := F) x0 x1 x2 x3 x4 x5 x6 x7 x8 x9 x10 x11 x12 x13 x14 x15 x16)

def val_main_call1_v5 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x32000, .f32⟩ : BufTy).Contents (Elt F) :=
  subf (val_main_v137 (F := F) x0 x1 x2 x3 x4 x5 x6 x7 x8 x9 x10 x11 x12 x13 x14 x15 x16) (val_main_call1_v4 (F := F) x0 x1 x2 x3 x4 x5 x6 x7 x8 x9 x10 x11 x12 x13 x14 x15 x16)

def val_main_call1_v6 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x32000, .f32⟩ : BufTy).Contents (Elt F) :=
  Host.exp (val_main_call1_v5 (F := F) x0 x1 x2 x3 x4 x5 x6 x7 x8 x9 x10 x11 x12 x13 x14 x15 x16)

def val_main_call1_cst_1 : (⟨S_, .f32⟩ : BufTy).Contents (Elt F) :=
  constant S_ .f32 0x00000000#32

def val_main_call1_v7 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16, .f32⟩ : BufTy).Contents (Elt F) :=
  Host.reduceAdd (val_main_call1_v6 (F := F) x0 x1 x2 x3 x4 x5 x6 x7 x8 x9 x10 x11 x12 x13 x14 x15 x16) (val_main_call1_cst_1 (F := F)) reducesTo_S16x32000_S16_d1 h_S_

def val_main_call1_v8 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x1, .f32⟩ : BufTy).Contents (Elt F) :=
  broadcastInDim S16x1 ![0] bcast_S16_S16x1_0 (val_main_call1_v7 (F := F) x0 x1 x2 x3 x4 x5 x6 x7 x8 x9 x10 x11 x12 x13 x14 x15 x16)

def val_main_call1_v9 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x1, .f32⟩ : BufTy).Contents (Elt F) :=
  Host.log (val_main_call1_v8 (F := F) x0 x1 x2 x3 x4 x5 x6 x7 x8 x9 x10 x11 x12 x13 x14 x15 x16)

def val_main_call1_v10 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x32000, .f32⟩ : BufTy).Contents (Elt F) :=
  broadcastInDim S16x32000 ![0, 1] bcast_S16x1_S16x32000_0_1 (val_main_call1_v9 (F := F) x0 x1 x2 x3 x4 x5 x6 x7 x8 x9 x10 x11 x12 x13 x14 x15 x16)

def val_main_v138 (x0 : (⟨S1x16, .i32⟩ : BufTy).Contents (Elt F)) (x1 : (⟨S3x16x2048, .f32⟩ : BufTy).Contents (Elt F)) (x2 : (⟨S32000x128, .f32⟩ : BufTy).Contents (Elt F)) (x3 : (⟨S6144x128, .f32⟩ : BufTy).Contents (Elt F)) (x4 : (⟨S6144x2048, .f32⟩ : BufTy).Contents (Elt F)) (x5 x6 : (⟨S6144, .f32⟩ : BufTy).Contents (Elt F)) (x7 x8 : (⟨S6144x2048, .f32⟩ : BufTy).Contents (Elt F)) (x9 x10 : (⟨S6144, .f32⟩ : BufTy).Contents (Elt F)) (x11 x12 : (⟨S6144x2048, .f32⟩ : BufTy).Contents (Elt F)) (x13 x14 : (⟨S6144, .f32⟩ : BufTy).Contents (Elt F)) (x15 : (⟨S32000x2048, .f32⟩ : BufTy).Contents (Elt F)) (x16 : (⟨S32000, .f32⟩ : BufTy).Contents (Elt F)) : (⟨S16x32000, .f32⟩ : BufTy).Contents (Elt F) :=
  subf (val_main_call1_v5 (F := F) x0 x1 x2 x3 x4 x5 x6 x7 x8 x9 x10 x11 x12 x13 x14 x15 x16) (val_main_call1_v10 (F := F) x0 x1 x2 x3 x4 x5 x6 x7 x8 x9 x10 x11 x12 x13 x14 x15 x16)

end Cert.ReferenceIdeal.ReadP

end
-- ==== Proof.Val.RefLayer1.lean ====
import proofs.«415147_j27384711479321_2_alg».proof.Proof.RefRead
import proofs.«415147_j27384711479321_2_alg».proof.Proof.GruCell
import Idealize.ShloMosaic.Lib.ValueLayout
import Idealize.ShloMosaic.Lib.StackMember
import Idealize.ShloMosaic.Lib.IdealHost

noncomputable section

namespace Cert.ReferenceIdeal.RefVal

open Cert.ReferenceIdeal Cert.ReferenceIdeal.ReadP Cert.GruCell Idealize.ShloMosaic Idealize.ShloMosaic.ValueIdx
open scoped BigOperators

-- The logistic function is `1 / (1 + exp (-x))`, and the constant the gates are written with is the real number one.
theorem cell_spelled (ir iz inn hr hz hn hprev : Ideal .f32) :
    FloatOps.addf
      (FloatOps.mulf
        (FloatOps.subf (FloatOps.ofBits (F := Ideal) .f32 0x3F800000#32)
          (FloatOps.hostDivf (FloatOps.ofBits (F := Ideal) .f32 0x3F800000#32)
            (FloatOps.addf (FloatOps.ofBits (F := Ideal) .f32 0x3F800000#32)
              (FloatOps.hostUnary .exp (FloatOps.hostNegf (FloatOps.addf iz hz))))))
        (FloatOps.hostUnary .tanh
          (FloatOps.addf inn
            (FloatOps.mulf
              (FloatOps.hostDivf (FloatOps.ofBits (F := Ideal) .f32 0x3F800000#32)
                (FloatOps.addf (FloatOps.ofBits (F := Ideal) .f32 0x3F800000#32)
                  (FloatOps.hostUnary .exp (FloatOps.hostNegf (FloatOps.addf ir hr)))))
              hn))))
      (FloatOps.mulf
        (FloatOps.hostDivf (FloatOps.ofBits (F := Ideal) .f32 0x3F800000#32)
          (FloatOps.addf (FloatOps.ofBits (F := Ideal) .f32 0x3F800000#32)
            (FloatOps.hostUnary .exp (FloatOps.hostNegf (FloatOps.addf iz hz)))))
        hprev)
      = cell ir iz inn hr hz hn hprev := by
  rw [cell, Ideal.logistic, Ideal.logistic, ← Ideal.ofBits_one_f32]; rfl

-- Entry `(b, r)` of `X Wᵀ` plus the bias repeated along the rows is `Σ_k X[b,k] W[r,k] + bias[r]`.
theorem lin_read {K N : Nat} (X : FVec Ideal ⟨2, ![16, K]⟩ .f32) (W : FVec Ideal ⟨2, ![N, K]⟩ .f32)
    (c : FVec Ideal ⟨1, ![N]⟩ .f32) (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![16, N]⟩ ![0, 1]) (b : Fin 16) (r : Fin N) :
    addf (Host.dotGeneral (DotDims.plain 16 K N) none X (transpose ⟨2, ![K, N]⟩ [1, 0] W hT))
        (broadcastInDim ⟨2, ![16, N]⟩ ![0, 1] h2 (broadcastInDim ⟨2, ![1, N]⟩ ![1] h1 c)) (ix2 b r)
      = (∑ k : Fin K, X (ix2 b k) * W (ix2 r k)) + c (ix1 r) := by
  rw [addf_apply, StackMember.dotGeneral_plain_apply, broadcastInDim_oneRow_apply,
    broadcastInDim_apply ![1] h1 c _ (ix1 r) fun a => match a with
      | ⟨0, _⟩ => by have := r.isLt; show r.val = if N = 1 then 0 else r.val; split_ifs <;> omega]
  exact congrArg (· + _) (Finset.sum_congr rfl fun k _ => by rw [transpose_ix2_apply])

-- A layer's new state from its two 16 × 6144 pre-activation arrays and its previous state, on whole arrays.
def cellArr (P Q : FVec Ideal S16x6144 .f32) (H : FVec Ideal S16x2048 .f32) : FVec Ideal S16x2048 .f32 :=
  let o : FVec Ideal S16x2048 .f32 := broadcastInDim S16x2048 ![] Gen.bcast_S_S16x2048 (constant S_ .f32 0x3F800000#32)
  let sg A := Host.divf o (addf o (Host.exp (Host.negf A)))
  let c0 A := extractStridedSlice S16x2048 ![0, 0] A Gen.slices_S16x6144_S16x2048_0_0
  let c1 A := extractStridedSlice S16x2048 ![0, 2048] A Gen.slices_S16x6144_S16x2048_0_2048
  let c2 A := extractStridedSlice S16x2048 ![0, 4096] A Gen.slices_S16x6144_S16x2048_0_4096
  let z := sg (addf (c1 P) (c1 Q))
  addf (mulf (subf o z) (Host.tanh (addf (c2 P) (mulf (sg (addf (c0 P) (c0 Q))) (c2 Q))))) (mulf z H)

-- Columns `2048 g + j` of the pre-activation arrays are the gates' affine maps; entry by entry the rest is the cell.
theorem cellArr_eq {K : Nat} (X : FVec Ideal ⟨2, ![16, K]⟩ .f32) (H : FVec Ideal S16x2048 .f32)
    (Wi : FVec Ideal ⟨2, ![6144, K]⟩ .f32) (Wh : FVec Ideal S6144x2048 .f32) (bi bh : FVec Ideal S6144 .f32)
    (P Q : FVec Ideal S16x6144 .f32)
    (hP : ∀ b r, P (ix2 b r) = (∑ k : Fin K, X (ix2 b k) * Wi (ix2 r k)) + bi (ix1 r))
    (hQ : ∀ b r, Q (ix2 b r) = (∑ k : Fin 2048, H (ix2 b k) * Wh (ix2 r k)) + bh (ix1 r)) :
    cellArr P Q H = gru X H Wi Wh bi bh := by
  funext i
  obtain ⟨b, j, rfl⟩ : ∃ (b : Fin 16) (j : Fin 2048), i = ix2 b j := ⟨i 0, i 1, eq_ix2 i⟩
  refine (cell_spelled _ _ _ _ _ _ _).trans ?_
  beta_reduce
  simp only [slice2_axis1_eq, hP, hQ]
  rfl

theorem ref_layer1 (x0 : (⟨S1x16, .i32⟩ : BufTy).Contents (Elt Ideal)) (x1 : (⟨S3x16x2048, .f32⟩ : BufTy).Contents (Elt Ideal)) (x2 : (⟨S32000x128, .f32⟩ : BufTy).Contents (Elt Ideal)) (x3 : (⟨S6144x128, .f32⟩ : BufTy).Contents (Elt Ideal)) (x4 : (⟨S6144x2048, .f32⟩ : BufTy).Contents (Elt Ideal)) (x5 x6 : (⟨S6144, .f32⟩ : BufTy).Contents (Elt Ideal)) (x7 x8 : (⟨S6144x2048, .f32⟩ : BufTy).Contents (Elt Ideal)) (x9 x10 : (⟨S6144, .f32⟩ : BufTy).Contents (Elt Ideal)) :
    val_main_v88 (F := Ideal) x0 x1 x2 x3 x4 x5 x6 x7 x8 x9 x10
      = gru (val_main_v48 (F := Ideal) x0 x1 x2 x3 x4 x5 x6) (val_main_v50 (F := Ideal) x1) x7 x8 x9 x10 :=
  cellArr_eq _ _ _ _ _ _ _ _ (lin_read _ _ _ _ _ _) (lin_read _ _ _ _ _ _)

end Cert.ReferenceIdeal.RefVal

end
-- ==== Proof.Val.RefLayer0.lean ====
import proofs.«415147_j27384711479321_2_alg».proof.Proof.Val.RefLayer1

noncomputable section

namespace Cert.ReferenceIdeal.RefVal

open Cert.ReferenceIdeal Cert.ReferenceIdeal.ReadP Cert.GruCell Idealize.ShloMosaic Idealize.ShloMosaic.ValueIdx
open scoped BigOperators

-- Slice `l` of the 3 × 16 × 2048 array, reshaped to 16 × 2048, reads entry `(l, b, k)`.
theorem h_read (l : Fin 3) (x : FVec Ideal S3x16x2048 .f32) (hS : S3x16x2048.Slices ![l.val, 0, 0] S1x16x2048)
    (hC : S1x16x2048.ShapeCasts S16x2048) (b : Fin 16) (k : Fin 2048) :
    shapeCast S16x2048 (extractStridedSlice S1x16x2048 ![l.val, 0, 0] x hS) hC (ix2 b k) = x (ix3 l b k) :=
  (shapeCast_1ab_ab_apply _ hC b k).trans (extractStridedSlice_apply _ x hS _ _ fun a => match a with
    | ⟨0, _⟩ => rfl
    | ⟨1, _⟩ => (Nat.zero_add _).symm
    | ⟨2, _⟩ => (Nat.zero_add _).symm)

theorem ref_h0 (x1 : (⟨S3x16x2048, .f32⟩ : BufTy).Contents (Elt Ideal)) (b : Fin 16) (k : Fin 2048) :
    val_main_v10 (F := Ideal) x1 (ix2 b k) = x1 (ix3 0 b k) :=
  h_read 0 x1 _ _ b k

theorem ref_h1 (x1 : (⟨S3x16x2048, .f32⟩ : BufTy).Contents (Elt Ideal)) (b : Fin 16) (k : Fin 2048) :
    val_main_v50 (F := Ideal) x1 (ix2 b k) = x1 (ix3 1 b k) :=
  h_read 1 x1 _ _ b k

theorem ref_h2 (x1 : (⟨S3x16x2048, .f32⟩ : BufTy).Contents (Elt Ideal)) (b : Fin 16) (k : Fin 2048) :
    val_main_v90 (F := Ideal) x1 (ix2 b k) = x1 (ix3 2 b k) :=
  h_read 2 x1 _ _ b k

theorem ref_layer0 (x0 : (⟨S1x16, .i32⟩ : BufTy).Contents (Elt Ideal)) (x1 : (⟨S3x16x2048, .f32⟩ : BufTy).Contents (Elt Ideal))
    (x2 : (⟨S32000x128, .f32⟩ : BufTy).Contents (Elt Ideal)) (x3 : (⟨S6144x128, .f32⟩ : BufTy).Contents (Elt Ideal))
    (x4 : (⟨S6144x2048, .f32⟩ : BufTy).Contents (Elt Ideal)) (x5 x6 : (⟨S6144, .f32⟩ : BufTy).Contents (Elt Ideal)) :
    val_main_v48 (F := Ideal) x0 x1 x2 x3 x4 x5 x6
      = gru (val_main_v8 (F := Ideal) x0 x2) (val_main_v10 (F := Ideal) x1) x3 x4 x5 x6 :=
  cellArr_eq _ _ _ _ _ _ _ _ (lin_read _ _ _ _ _ _) (lin_read _ _ _ _ _ _)

end Cert.ReferenceIdeal.RefVal

end
-- ==== Proof.Val.RefLayer2.lean ====
import proofs.«415147_j27384711479321_2_alg».proof.Proof.Val.RefLayer1

noncomputable section

namespace Cert.ReferenceIdeal.RefVal

open Cert.ReferenceIdeal Cert.ReferenceIdeal.ReadP Cert.GruCell Idealize.ShloMosaic Idealize.ShloMosaic.ValueIdx
open scoped BigOperators

theorem ref_layer2 (x0 : (⟨S1x16, .i32⟩ : BufTy).Contents (Elt Ideal)) (x1 : (⟨S3x16x2048, .f32⟩ : BufTy).Contents (Elt Ideal)) (x2 : (⟨S32000x128, .f32⟩ : BufTy).Contents (Elt Ideal)) (x3 : (⟨S6144x128, .f32⟩ : BufTy).Contents (Elt Ideal)) (x4 : (⟨S6144x2048, .f32⟩ : BufTy).Contents (Elt Ideal)) (x5 x6 : (⟨S6144, .f32⟩ : BufTy).Contents (Elt Ideal)) (x7 x8 : (⟨S6144x2048, .f32⟩ : BufTy).Contents (Elt Ideal)) (x9 x10 : (⟨S6144, .f32⟩ : BufTy).Contents (Elt Ideal)) (x11 x12 : (⟨S6144x2048, .f32⟩ : BufTy).Contents (Elt Ideal)) (x13 x14 : (⟨S6144, .f32⟩ : BufTy).Contents (Elt Ideal)) :
    val_main_v128 (F := Ideal) x0 x1 x2 x3 x4 x5 x6 x7 x8 x9 x10 x11 x12 x13 x14
      = gru (val_main_v88 (F := Ideal) x0 x1 x2 x3 x4 x5 x6 x7 x8 x9 x10) (val_main_v90 (F := Ideal) x1) x11 x12 x13 x14 :=
  cellArr_eq _ _ _ _ _ _ _ _ (lin_read _ _ _ _ _ _) (lin_read _ _ _ _ _ _)

end Cert.ReferenceIdeal.RefVal

end
-- ==== Proof.Val.RefTail.lean ====
import proofs.«415147_j27384711479321_2_alg».proof.Proof.Val.RefLayer1
import proofs.«415147_j27384711479321_2_alg».proof.Proof.Val.HostFns

noncomputable section

namespace Cert.ReferenceIdeal.RefVal

open Cert.ReferenceIdeal Cert.ReferenceIdeal.ReadP Cert.GruCell Idealize.ShloMosaic Idealize.ShloMosaic.ValueIdx
open scoped BigOperators

theorem ref_embed (x0 : (⟨S1x16, .i32⟩ : BufTy).Contents (Elt Ideal)) (x2 : (⟨S32000x128, .f32⟩ : BufTy).Contents (Elt Ideal)) :
    val_main_v8 (F := Ideal) x0 x2 = Cert.KernelIdeal.SegVal.embedPlain (F := Ideal) x0 x2 :=
  rfl

theorem ref_logits (x0 : (⟨S1x16, .i32⟩ : BufTy).Contents (Elt Ideal)) (x1 : (⟨S3x16x2048, .f32⟩ : BufTy).Contents (Elt Ideal)) (x2 : (⟨S32000x128, .f32⟩ : BufTy).Contents (Elt Ideal)) (x3 : (⟨S6144x128, .f32⟩ : BufTy).Contents (Elt Ideal)) (x4 : (⟨S6144x2048, .f32⟩ : BufTy).Contents (Elt Ideal)) (x5 : (⟨S6144, .f32⟩ : BufTy).Contents (Elt Ideal)) (x6 : (⟨S6144, .f32⟩ : BufTy).Contents (Elt Ideal)) (x7 : (⟨S6144x2048, .f32⟩ : BufTy).Contents (Elt Ideal)) (x8 : (⟨S6144x2048, .f32⟩ : BufTy).Contents (Elt Ideal)) (x9 : (⟨S6144, .f32⟩ : BufTy).Contents (Elt Ideal)) (x10 : (⟨S6144, .f32⟩ : BufTy).Contents (Elt Ideal)) (x11 : (⟨S6144x2048, .f32⟩ : BufTy).Contents (Elt Ideal)) (x12 : (⟨S6144x2048, .f32⟩ : BufTy).Contents (Elt Ideal)) (x13 : (⟨S6144, .f32⟩ : BufTy).Contents (Elt Ideal)) (x14 : (⟨S6144, .f32⟩ : BufTy).Contents (Elt Ideal)) (x15 : (⟨S32000x2048, .f32⟩ : BufTy).Contents (Elt Ideal)) (x16 : (⟨S32000, .f32⟩ : BufTy).Contents (Elt Ideal)) :
    val_main_v137 (F := Ideal) x0 x1 x2 x3 x4 x5 x6 x7 x8 x9 x10 x11 x12 x13 x14 x15 x16 = logits (val_main_v128 (F := Ideal) x0 x1 x2 x3 x4 x5 x6 x7 x8 x9 x10 x11 x12 x13 x14) x15 x16 :=
  funext fun i => by
    obtain ⟨b, v, rfl⟩ : ∃ (b : Fin 16) (v : Fin 32000), i = ix2 b v := ⟨i 0, i 1, eq_ix2 i⟩
    exact lin_read _ _ _ _ _ _ b v

theorem ref_hidden (x0 : (⟨S1x16, .i32⟩ : BufTy).Contents (Elt Ideal)) (x1 : (⟨S3x16x2048, .f32⟩ : BufTy).Contents (Elt Ideal)) (x2 : (⟨S32000x128, .f32⟩ : BufTy).Contents (Elt Ideal)) (x3 : (⟨S6144x128, .f32⟩ : BufTy).Contents (Elt Ideal)) (x4 : (⟨S6144x2048, .f32⟩ : BufTy).Contents (Elt Ideal)) (x5 : (⟨S6144, .f32⟩ : BufTy).Contents (Elt Ideal)) (x6 : (⟨S6144, .f32⟩ : BufTy).Contents (Elt Ideal)) (x7 : (⟨S6144x2048, .f32⟩ : BufTy).Contents (Elt Ideal)) (x8 : (⟨S6144x2048, .f32⟩ : BufTy).Contents (Elt Ideal)) (x9 : (⟨S6144, .f32⟩ : BufTy).Contents (Elt Ideal)) (x10 : (⟨S6144, .f32⟩ : BufTy).Contents (Elt Ideal)) (x11 : (⟨S6144x2048, .f32⟩ : BufTy).Contents (Elt Ideal)) (x12 : (⟨S6144x2048, .f32⟩ : BufTy).Contents (Elt Ideal)) (x13 : (⟨S6144, .f32⟩ : BufTy).Contents (Elt Ideal)) (x14 : (⟨S6144, .f32⟩ : BufTy).Contents (Elt Ideal)) :
    val_main_v132 (F := Ideal) x0 x1 x2 x3 x4 x5 x6 x7 x8 x9 x10 x11 x12 x13 x14 = Cert.KernelIdeal.SegVal.stack3 (F := Ideal) (val_main_v48 (F := Ideal) x0 x1 x2 x3 x4 x5 x6) (val_main_v88 (F := Ideal) x0 x1 x2 x3 x4 x5 x6 x7 x8 x9 x10) (val_main_v128 (F := Ideal) x0 x1 x2 x3 x4 x5 x6 x7 x8 x9 x10 x11 x12 x13 x14) :=
  rfl

theorem ref_logp (x0 : (⟨S1x16, .i32⟩ : BufTy).Contents (Elt Ideal)) (x1 : (⟨S3x16x2048, .f32⟩ : BufTy).Contents (Elt Ideal)) (x2 : (⟨S32000x128, .f32⟩ : BufTy).Contents (Elt Ideal)) (x3 : (⟨S6144x128, .f32⟩ : BufTy).Contents (Elt Ideal)) (x4 : (⟨S6144x2048, .f32⟩ : BufTy).Contents (Elt Ideal)) (x5 : (⟨S6144, .f32⟩ : BufTy).Contents (Elt Ideal)) (x6 : (⟨S6144, .f32⟩ : BufTy).Contents (Elt Ideal)) (x7 : (⟨S6144x2048, .f32⟩ : BufTy).Contents (Elt Ideal)) (x8 : (⟨S6144x2048, .f32⟩ : BufTy).Contents (Elt Ideal)) (x9 : (⟨S6144, .f32⟩ : BufTy).Contents (Elt Ideal)) (x10 : (⟨S6144, .f32⟩ : BufTy).Contents (Elt Ideal)) (x11 : (⟨S6144x2048, .f32⟩ : BufTy).Contents (Elt Ideal)) (x12 : (⟨S6144x2048, .f32⟩ : BufTy).Contents (Elt Ideal)) (x13 : (⟨S6144, .f32⟩ : BufTy).Contents (Elt Ideal)) (x14 : (⟨S6144, .f32⟩ : BufTy).Contents (Elt Ideal)) (x15 : (⟨S32000x2048, .f32⟩ : BufTy).Contents (Elt Ideal)) (x16 : (⟨S32000, .f32⟩ : BufTy).Contents (Elt Ideal)) :
    val_main_v138 (F := Ideal) x0 x1 x2 x3 x4 x5 x6 x7 x8 x9 x10 x11 x12 x13 x14 x15 x16 = Cert.KernelIdeal.SegVal.logSoftmax (F := Ideal) (val_main_v137 (F := Ideal) x0 x1 x2 x3 x4 x5 x6 x7 x8 x9 x10 x11 x12 x13 x14 x15 x16) :=
  rfl

end Cert.ReferenceIdeal.RefVal

end
-- ==== Proof.Val.Equal.lean ====
import proofs.«415147_j27384711479321_2_alg».proof.Defs
import proofs.«415147_j27384711479321_2_alg».proof.Proof.KI.FrameOf
import proofs.«415147_j27384711479321_2_alg».proof.Proof.Val.Layer0Val
import proofs.«415147_j27384711479321_2_alg».proof.Proof.Val.Layer1Val
import proofs.«415147_j27384711479321_2_alg».proof.Proof.Val.Layer2Val
import proofs.«415147_j27384711479321_2_alg».proof.Proof.Val.ProjectVal
import proofs.«415147_j27384711479321_2_alg».proof.Proof.Val.HostVal
import proofs.«415147_j27384711479321_2_alg».proof.Proof.Val.Embed
import proofs.«415147_j27384711479321_2_alg».proof.Proof.Val.RefLayer0
import proofs.«415147_j27384711479321_2_alg».proof.Proof.Val.RefLayer1
import proofs.«415147_j27384711479321_2_alg».proof.Proof.Val.RefLayer2
import proofs.«415147_j27384711479321_2_alg».proof.Proof.Val.RefTail

set_option maxRecDepth 16384

noncomputable section

namespace Cert.KernelIdeal.SegVal

open Idealize.ShloMosaic Idealize.ShloMosaic.TcCoe Idealize.SL.Sem Idealize.ShloMosaic.ValueIdx
open Cert.KernelIdeal Cert.KernelIdeal.Gen Cert.KernelIdeal.Seg Cert.GruCell

def hidAt (a1 : Cube 3 16 2048) (l : Fin 3) : Mat 16 2048 := fun i => a1 (ix3 l (i 0) (i 1))

theorem mat_ext {r q : Nat} {A B : Mat r q} (h : ∀ (b : Fin r) (k : Fin q), A (ix2 b k) = B (ix2 b k)) : A = B :=
  funext fun i => by rw [eq_ix2 i]; exact h (i 0) (i 1)

variable (a0 : IVec S1x16 32) (a1 : Cube 3 16 2048) (a2 : FVec Ideal S32000x128 .f32)
  (a3 : Mat 6144 128) (a4 : Mat 6144 2048) (a5 a6 : Row 6144)
  (a7 a8 : Mat 6144 2048) (a9 a10 : Row 6144) (a11 a12 : Mat 6144 2048) (a13 a14 : Row 6144)
  (a15 : Mat 32000 2048) (a16 : Row 32000)

def state1 : Mat 16 2048 := gru (embedPlain (F := Ideal) a0 a2) (hidAt a1 0) a3 a4 a5 a6
def state2 : Mat 16 2048 := gru (state1 a0 a1 a2 a3 a4 a5 a6) (hidAt a1 1) a7 a8 a9 a10
def state3 : Mat 16 2048 := gru (state2 a0 a1 a2 a3 a4 a5 a6 a7 a8 a9 a10) (hidAt a1 2) a11 a12 a13 a14

section Tiled

variable (m : (ℓ : Loc nD τ sig) → Buf (Elt Ideal) ℓ) (c : Dev nD)

abbrev L (r : Ref sig .tc) : Buf (Elt Ideal) ((c.tc : Thread nD τ).loc r) := m ((c.tc : Thread nD τ).loc r)

theorem Va1_eq : Va1 m c = fun (b : Ref sig .tc) => V6 m (outs m) c b := funext fun b => by rw [V6_eq]
theorem Va2_eq : Va2 m c = fun (b : Ref sig .tc) => V8 m (outs m) c b := funext fun b => by rw [V8_eq]
theorem Va3_eq : Va3 m c = fun (b : Ref sig .tc) => V10 m (outs m) c b := funext fun b => by rw [V10_eq]

theorem left_state1 (htok : TokensInTable (L m c main_arg0)) :
    x5 m c = state1 (L m c main_arg0) (L m c main_arg1) (L m c main_arg2) (L m c main_arg3) (L m c main_arg4) (L m c main_arg5) (L m c main_arg6) := by
  unfold x5 state1
  rw [layer0_array (Va0 m) c (dat0 (Va0 m) c) (fun _ => rfl) fun _ => by dsimp only [dat0]]
  rw [gru3_eq_gru _ _ _ _ _ _ _ _ _ _
    (V4_wih m c) (V4_whh m c) (V4_bih m c) (V4_bhh m c)]
  rw [show Va0 m c main_v2 = embedPlain (F := Ideal) (L m c main_arg0) (L m c main_arg2) from
      (V4_x m c).trans (embedFill_eq_embedPlain _ _ htok),
    show Va0 m c main_v4 = hidAt (L m c main_arg1) 0 from mat_ext fun b k => V4_h m c b k]

theorem left_state2 : x7 m c = gru (x5 m c) (hidAt (L m c main_arg1) 1) (L m c main_arg7) (L m c main_arg8) (L m c main_arg9) (L m c main_arg10) := by
  unfold x7
  rw [layer1_array (Va1 m) c (dat1 (Va1 m) c) (fun _ => rfl) fun _ => by dsimp only [dat1], Va1_eq]
  rw [gru3_eq_gru _ _ _ _ _ _ _ _ _ _
    (V6_wih m (outs m) c) (V6_whh m (outs m) c) (V6_bih m (outs m) c) (V6_bhh m (outs m) c)]
  beta_reduce
  rw [show V6 m (outs m) c main_v9 = x5 m c from (V6_x m (outs m) c).trans (outs_5 m c),
    show V6 m (outs m) c main_v11 = hidAt (L m c main_arg1) 1 from mat_ext fun b k => V6_h m (outs m) c b k]

theorem left_state3 : x9 m c = gru (x7 m c) (hidAt (L m c main_arg1) 2) (L m c main_arg11) (L m c main_arg12) (L m c main_arg13) (L m c main_arg14) := by
  unfold x9
  rw [layer2_array (Va2 m) c (dat2 (Va2 m) c) (fun _ => rfl) fun _ => by dsimp only [dat2], Va2_eq]
  rw [gru3_eq_gru _ _ _ _ _ _ _ _ _ _
    (V8_wih m (outs m) c) (V8_whh m (outs m) c) (V8_bih m (outs m) c) (V8_bhh m (outs m) c)]
  beta_reduce
  rw [show V8 m (outs m) c main_v16 = x7 m c from (V8_x m (outs m) c).trans (outs_7 m c),
    show V8 m (outs m) c main_v18 = hidAt (L m c main_arg1) 2 from mat_ext fun b k => V8_h m (outs m) c b k]

theorem left_logits : x11 m c = logits (x9 m c) (L m c main_arg15) (L m c main_arg16) := by
  unfold x11
  rw [project_array (Va3 m) c (dat3 (Va3 m) c) (fun _ => rfl) fun _ => by dsimp only [dat3], Va3_eq]
  rw [logitsRow_eq_logits _ _ _ _ (V10_b m (outs m) c)]
  beta_reduce
  rw [show V10 m (outs m) c main_v23 = x9 m c from (V10_x m (outs m) c).trans (outs_9 m c), V10_w m (outs m) c]

theorem tiled_logp (htok : TokensInTable (L m c main_arg0)) :
    V12 m (outs m) c main_v30 = logSoftmax (F := Ideal) (logits (state3 (L m c main_arg0) (L m c main_arg1) (L m c main_arg2) (L m c main_arg3) (L m c main_arg4) (L m c main_arg5) (L m c main_arg6) (L m c main_arg7) (L m c main_arg8) (L m c main_arg9) (L m c main_arg10) (L m c main_arg11) (L m c main_arg12) (L m c main_arg13) (L m c main_arg14)) (L m c main_arg15) (L m c main_arg16)) := by
  rw [V12_logp m (outs m) c, outs_11 m c, left_logits m c, left_state3 m c, left_state2 m c, left_state1 m c htok]
  rfl
theorem tiled_hidden (htok : TokensInTable (L m c main_arg0)) :
    V12 m (outs m) c main_v27 = stack3 (F := Ideal) (state1 (L m c main_arg0) (L m c main_arg1) (L m c main_arg2) (L m c main_arg3) (L m c main_arg4) (L m c main_arg5) (L m c main_arg6)) (state2 (L m c main_arg0) (L m c main_arg1) (L m c main_arg2) (L m c main_arg3) (L m c main_arg4) (L m c main_arg5) (L m c main_arg6) (L m c main_arg7) (L m c main_arg8) (L m c main_arg9) (L m c main_arg10)) (state3 (L m c main_arg0) (L m c main_arg1) (L m c main_arg2) (L m c main_arg3) (L m c main_arg4) (L m c main_arg5) (L m c main_arg6) (L m c main_arg7) (L m c main_arg8) (L m c main_arg9) (L m c main_arg10) (L m c main_arg11) (L m c main_arg12) (L m c main_arg13) (L m c main_arg14)) := by
  rw [V12_hidden m (outs m) c, outs_5 m c, outs_7 m c, outs_9 m c, left_state3 m c, left_state2 m c, left_state1 m c htok]
  rfl

end Tiled

section Plain

open Cert.ReferenceIdeal.ReadP Cert.ReferenceIdeal.RefVal

theorem plain_state1 : val_main_v48 (F := Ideal) a0 a1 a2 a3 a4 a5 a6 = state1 a0 a1 a2 a3 a4 a5 a6 := by
  rw [ref_layer0, ref_embed, show val_main_v10 (F := Ideal) a1 = hidAt a1 0 from mat_ext fun b k => ref_h0 a1 b k]; rfl
theorem plain_state2 : val_main_v88 (F := Ideal) a0 a1 a2 a3 a4 a5 a6 a7 a8 a9 a10 = state2 a0 a1 a2 a3 a4 a5 a6 a7 a8 a9 a10 := by
  rw [ref_layer1, plain_state1, show val_main_v50 (F := Ideal) a1 = hidAt a1 1 from mat_ext fun b k => ref_h1 a1 b k]; rfl
theorem plain_state3 : val_main_v128 (F := Ideal) a0 a1 a2 a3 a4 a5 a6 a7 a8 a9 a10 a11 a12 a13 a14 = state3 a0 a1 a2 a3 a4 a5 a6 a7 a8 a9 a10 a11 a12 a13 a14 := by
  rw [ref_layer2, plain_state2, show val_main_v90 (F := Ideal) a1 = hidAt a1 2 from mat_ext fun b k => ref_h2 a1 b k]; rfl
theorem plain_logp : val_main_v138 (F := Ideal) a0 a1 a2 a3 a4 a5 a6 a7 a8 a9 a10 a11 a12 a13 a14 a15 a16 = logSoftmax (F := Ideal) (logits (state3 a0 a1 a2 a3 a4 a5 a6 a7 a8 a9 a10 a11 a12 a13 a14) a15 a16) := by
  rw [ref_logp, ref_logits, plain_state3]
theorem plain_hidden : val_main_v132 (F := Ideal) a0 a1 a2 a3 a4 a5 a6 a7 a8 a9 a10 a11 a12 a13 a14 = stack3 (F := Ideal) (state1 a0 a1 a2 a3 a4 a5 a6) (state2 a0 a1 a2 a3 a4 a5 a6 a7 a8 a9 a10) (state3 a0 a1 a2 a3 a4 a5 a6 a7 a8 a9 a10 a11 a12 a13 a14) := by
  rw [ref_hidden, plain_state1, plain_state2, plain_state3]

end Plain

end Cert.KernelIdeal.SegVal

end
-- ==== Proof.RefRunChunks.lean ====
import proofs.«415147_j27384711479321_2_alg».proof.Proof.Gen.ReferenceIdeal
import Idealize.ShloMosaic.Lib.StableHlo.Run
import Idealize.ShloMosaic.Lib.Pipeline.Regions
import proofs.«415147_j27384711479321_2_alg».proof.Proof.RefRead

noncomputable section

namespace Cert.ReferenceIdeal.RunC

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ reshape main_arg0 main_v0 rfl shapeCasts_S1x16_S16,
    nullary main_c (constantI S_ 32 0#32),
    unary main_c main_v1 (broadcastInDim S16 ![] bcast_S_S16),
    binary main_v0 main_v1 main_v2 (cmpi .slt),
    nullary main_c_0 (constantI S_ 32 32000#32),
    unary main_c_0 main_v3 (broadcastInDim S16 ![] bcast_S_S16),
    binary main_v0 main_v3 main_v4 addi,
    ternary main_v2 main_v4 main_v0 main_v5 select,
    unary main_v5 main_v6 (broadcastInDim S16x1 ![0] bcast_S16_S16x1_0),
    binary main_arg2 main_v6 main_v7 (fun x i => Host.gather gather_S32000x128_S16x1_S16x128_1_0_n_n_0_1_1128 x i),
    TRef.nullary (TRef.of (T := ⟨S_, .f32⟩) main_call0_cst) (constant S_ .f32 0x00000000#32),
    TRef.unary (TRef.of (T := ⟨S_, .f32⟩) main_call0_cst) (TRef.of (T := ⟨S16x128, .f32⟩) main_call0_v0) (broadcastInDim S16x128 ![] bcast_S_S16x128),
    TRef.binary (TRef.of (T := ⟨S16x128, .f32⟩) main_v7) (TRef.of (T := ⟨S16x128, .f32⟩) main_call0_v0) (TRef.of (T := ⟨S16x128, .f32⟩) main_v8) maximumf,
    unary main_arg1 main_v9 (extractStridedSlice S1x16x2048 ![0, 0, 0] · slices_S3x16x2048_S1x16x2048_0_0_0),
    reshape main_v9 main_v10 rfl shapeCasts_S1x16x2048_S16x2048,
    unary main_arg3 main_v11 (transpose S128x6144 [1, 0] · transposes_S6144x128_S128x6144_1_0),
    binary main_v8 main_v11 main_v12 (fun l r => Host.dotGeneral dot_S16x128_S128x6144_S16x6144_1_0_0_1_n_n none l r),
    unary main_arg5 main_v13 (broadcastInDim S1x6144 ![1] bcast_S6144_S1x6144_1),
    unary main_v13 main_v14 (broadcastInDim S16x6144 ![0, 1] bcast_S1x6144_S16x6144_0_1),
    binary main_v12 main_v14 main_v15 addf,
    unary main_arg4 main_v16 (transpose S2048x6144 [1, 0] · transposes_S6144x2048_S2048x6144_1_0),
    binary main_v10 main_v16 main_v17 (fun l r => Host.dotGeneral dot_S16x2048_S2048x6144_S16x6144_1_0_0_1_n_n none l r),
    unary main_arg6 main_v18 (broadcastInDim S1x6144 ![1] bcast_S6144_S1x6144_1),
    unary main_v18 main_v19 (broadcastInDim S16x6144 ![0, 1] bcast_S1x6144_S16x6144_0_1),
    binary main_v17 main_v19 main_v20 addf,
    unary main_v15 main_v21 (extractStridedSlice S16x2048 ![0, 0] · slices_S16x6144_S16x2048_0_0),
    unary main_v15 main_v22 (extractStridedSlice S16x2048 ![0, 2048] · slices_S16x6144_S16x2048_0_2048),
    unary main_v15 main_v23 (extractStridedSlice S16x2048 ![0, 4096] · slices_S16x6144_S16x2048_0_4096),
    unary main_v20 main_v24 (extractStridedSlice S16x2048 ![0, 0] · slices_S16x6144_S16x2048_0_0),
    unary main_v20 main_v25 (extractStridedSlice S16x2048 ![0, 2048] · slices_S16x6144_S16x2048_0_2048),
    unary main_v20 main_v26 (extractStridedSlice S16x2048 ![0, 4096] · slices_S16x6144_S16x2048_0_4096),
    binary main_v21 main_v24 main_v27 addf,
    unary main_v27 main_v28 Host.negf,
    unary main_v28 main_v29 Host.exp,
    nullary main_cst (constant S_ .f32 0x3F800000#32),
    unary main_cst main_v30 (broadcastInDim S16x2048 ![] bcast_S_S16x2048),
    binary main_v30 main_v29 main_v31 addf,
    nullary main_cst_1 (constant S_ .f32 0x3F800000#32),
    unary main_cst_1 main_v32 (broadcastInDim S16x2048 ![] bcast_S_S16x2048),
    binary main_v32 main_v31 main_v33 Host.divf,
    binary main_v22 main_v25 main_v34 addf,
    unary main_v34 main_v35 Host.negf,
    unary main_v35 main_v36 Host.exp,
    nullary main_cst_2 (constant S_ .f32 0x3F800000#32),
    unary main_cst_2 main_v37 (broadcastInDim S16x2048 ![] bcast_S_S16x2048),
    binary main_v37 main_v36 main_v38 addf,
    nullary main_cst_3 (constant S_ .f32 0x3F800000#32),
    unary main_cst_3 main_v39 (broadcastInDim S16x2048 ![] bcast_S_S16x2048),
    binary main_v39 main_v38 main_v40 Host.divf,
    binary main_v33 main_v26 main_v41 mulf,
    binary main_v23 main_v41 main_v42 addf,
    unary main_v42 main_v43 Host.tanh,
    nullary main_cst_4 (constant S_ .f32 0x3F800000#32),
    unary main_cst_4 main_v44 (broadcastInDim S16x2048 ![] bcast_S_S16x2048),
    binary main_v44 main_v40 main_v45 subf,
    binary main_v45 main_v43 main_v46 mulf,
    binary main_v40 main_v10 main_v47 mulf,
    binary main_v46 main_v47 main_v48 addf ]

abbrev ops2 : List (HloOp τ sig (Elt F)) :=
  [ unary main_arg1 main_v49 (extractStridedSlice S1x16x2048 ![1, 0, 0] · slices_S3x16x2048_S1x16x2048_1_0_0),
    reshape main_v49 main_v50 rfl shapeCasts_S1x16x2048_S16x2048,
    unary main_arg7 main_v51 (transpose S2048x6144 [1, 0] · transposes_S6144x2048_S2048x6144_1_0),
    binary main_v48 main_v51 main_v52 (fun l r => Host.dotGeneral dot_S16x2048_S2048x6144_S16x6144_1_0_0_1_n_n none l r),
    unary main_arg9 main_v53 (broadcastInDim S1x6144 ![1] bcast_S6144_S1x6144_1),
    unary main_v53 main_v54 (broadcastInDim S16x6144 ![0, 1] bcast_S1x6144_S16x6144_0_1),
    binary main_v52 main_v54 main_v55 addf,
    unary main_arg8 main_v56 (transpose S2048x6144 [1, 0] · transposes_S6144x2048_S2048x6144_1_0),
    binary main_v50 main_v56 main_v57 (fun l r => Host.dotGeneral dot_S16x2048_S2048x6144_S16x6144_1_0_0_1_n_n none l r),
    unary main_arg10 main_v58 (broadcastInDim S1x6144 ![1] bcast_S6144_S1x6144_1),
    unary main_v58 main_v59 (broadcastInDim S16x6144 ![0, 1] bcast_S1x6144_S16x6144_0_1),
    binary main_v57 main_v59 main_v60 addf,
    unary main_v55 main_v61 (extractStridedSlice S16x2048 ![0, 0] · slices_S16x6144_S16x2048_0_0),
    unary main_v55 main_v62 (extractStridedSlice S16x2048 ![0, 2048] · slices_S16x6144_S16x2048_0_2048),
    unary main_v55 main_v63 (extractStridedSlice S16x2048 ![0, 4096] · slices_S16x6144_S16x2048_0_4096),
    unary main_v60 main_v64 (extractStridedSlice S16x2048 ![0, 0] · slices_S16x6144_S16x2048_0_0),
    unary main_v60 main_v65 (extractStridedSlice S16x2048 ![0, 2048] · slices_S16x6144_S16x2048_0_2048),
    unary main_v60 main_v66 (extractStridedSlice S16x2048 ![0, 4096] · slices_S16x6144_S16x2048_0_4096),
    binary main_v61 main_v64 main_v67 addf,
    unary main_v67 main_v68 Host.negf,
    unary main_v68 main_v69 Host.exp,
    nullary main_cst_5 (constant S_ .f32 0x3F800000#32),
    unary main_cst_5 main_v70 (broadcastInDim S16x2048 ![] bcast_S_S16x2048),
    binary main_v70 main_v69 main_v71 addf,
    nullary main_cst_6 (constant S_ .f32 0x3F800000#32),
    unary main_cst_6 main_v72 (broadcastInDim S16x2048 ![] bcast_S_S16x2048),
    binary main_v72 main_v71 main_v73 Host.divf,
    binary main_v62 main_v65 main_v74 addf,
    unary main_v74 main_v75 Host.negf,
    unary main_v75 main_v76 Host.exp,
    nullary main_cst_7 (constant S_ .f32 0x3F800000#32),
    unary main_cst_7 main_v77 (broadcastInDim S16x2048 ![] bcast_S_S16x2048),
    binary main_v77 main_v76 main_v78 addf,
    nullary main_cst_8 (constant S_ .f32 0x3F800000#32),
    unary main_cst_8 main_v79 (broadcastInDim S16x2048 ![] bcast_S_S16x2048),
    binary main_v79 main_v78 main_v80 Host.divf,
    binary main_v73 main_v66 main_v81 mulf,
    binary main_v63 main_v81 main_v82 addf,
    unary main_v82 main_v83 Host.tanh,
    nullary main_cst_9 (constant S_ .f32 0x3F800000#32),
    unary main_cst_9 main_v84 (broadcastInDim S16x2048 ![] bcast_S_S16x2048),
    binary main_v84 main_v80 main_v85 subf,
    binary main_v85 main_v83 main_v86 mulf,
    binary main_v80 main_v50 main_v87 mulf,
    binary main_v86 main_v87 main_v88 addf ]

abbrev ops3 : List (HloOp τ sig (Elt F)) :=
  [ unary main_arg1 main_v89 (extractStridedSlice S1x16x2048 ![2, 0, 0] · slices_S3x16x2048_S1x16x2048_2_0_0),
    reshape main_v89 main_v90 rfl shapeCasts_S1x16x2048_S16x2048,
    unary main_arg11 main_v91 (transpose S2048x6144 [1, 0] · transposes_S6144x2048_S2048x6144_1_0),
    binary main_v88 main_v91 main_v92 (fun l r => Host.dotGeneral dot_S16x2048_S2048x6144_S16x6144_1_0_0_1_n_n none l r),
    unary main_arg13 main_v93 (broadcastInDim S1x6144 ![1] bcast_S6144_S1x6144_1),
    unary main_v93 main_v94 (broadcastInDim S16x6144 ![0, 1] bcast_S1x6144_S16x6144_0_1),
    binary main_v92 main_v94 main_v95 addf,
    unary main_arg12 main_v96 (transpose S2048x6144 [1, 0] · transposes_S6144x2048_S2048x6144_1_0),
    binary main_v90 main_v96 main_v97 (fun l r => Host.dotGeneral dot_S16x2048_S2048x6144_S16x6144_1_0_0_1_n_n none l r),
    unary main_arg14 main_v98 (broadcastInDim S1x6144 ![1] bcast_S6144_S1x6144_1),
    unary main_v98 main_v99 (broadcastInDim S16x6144 ![0, 1] bcast_S1x6144_S16x6144_0_1),
    binary main_v97 main_v99 main_v100 addf,
    unary main_v95 main_v101 (extractStridedSlice S16x2048 ![0, 0] · slices_S16x6144_S16x2048_0_0),
    unary main_v95 main_v102 (extractStridedSlice S16x2048 ![0, 2048] · slices_S16x6144_S16x2048_0_2048),
    unary main_v95 main_v103 (extractStridedSlice S16x2048 ![0, 4096] · slices_S16x6144_S16x2048_0_4096),
    unary main_v100 main_v104 (extractStridedSlice S16x2048 ![0, 0] · slices_S16x6144_S16x2048_0_0),
    unary main_v100 main_v105 (extractStridedSlice S16x2048 ![0, 2048] · slices_S16x6144_S16x2048_0_2048),
    unary main_v100 main_v106 (extractStridedSlice S16x2048 ![0, 4096] · slices_S16x6144_S16x2048_0_4096),
    binary main_v101 main_v104 main_v107 addf,
    unary main_v107 main_v108 Host.negf,
    unary main_v108 main_v109 Host.exp,
    nullary main_cst_10 (constant S_ .f32 0x3F800000#32),
    unary main_cst_10 main_v110 (broadcastInDim S16x2048 ![] bcast_S_S16x2048),
    binary main_v110 main_v109 main_v111 addf,
    nullary main_cst_11 (constant S_ .f32 0x3F800000#32),
    unary main_cst_11 main_v112 (broadcastInDim S16x2048 ![] bcast_S_S16x2048),
    binary main_v112 main_v111 main_v113 Host.divf,
    binary main_v102 main_v105 main_v114 addf,
    unary main_v114 main_v115 Host.negf,
    unary main_v115 main_v116 Host.exp,
    nullary main_cst_12 (constant S_ .f32 0x3F800000#32),
    unary main_cst_12 main_v117 (broadcastInDim S16x2048 ![] bcast_S_S16x2048),
    binary main_v117 main_v116 main_v118 addf,
    nullary main_cst_13 (constant S_ .f32 0x3F800000#32),
    unary main_cst_13 main_v119 (broadcastInDim S16x2048 ![] bcast_S_S16x2048),
    binary main_v119 main_v118 main_v120 Host.divf,
    binary main_v113 main_v106 main_v121 mulf,
    binary main_v103 main_v121 main_v122 addf,
    unary main_v122 main_v123 Host.tanh,
    nullary main_cst_14 (constant S_ .f32 0x3F800000#32),
    unary main_cst_14 main_v124 (broadcastInDim S16x2048 ![] bcast_S_S16x2048),
    binary main_v124 main_v120 main_v125 subf,
    binary main_v125 main_v123 main_v126 mulf,
    binary main_v120 main_v90 main_v127 mulf,
    binary main_v126 main_v127 main_v128 addf,
    unary main_v48 main_v129 (broadcastInDim S1x16x2048 ![1, 2] bcast_S16x2048_S1x16x2048_1_2),
    unary main_v88 main_v130 (broadcastInDim S1x16x2048 ![1, 2] bcast_S16x2048_S1x16x2048_1_2),
    unary main_v128 main_v131 (broadcastInDim S1x16x2048 ![1, 2] bcast_S16x2048_S1x16x2048_1_2) ]

abbrev ops4 : List (HloOp τ sig (Elt F)) :=
  [ nary ![main_v129, main_v130, main_v131] main_v132 (fun u => concatenate S3x16x2048 0 [⟨S1x16x2048, u 0⟩, ⟨S1x16x2048, u 1⟩, ⟨S1x16x2048, u 2⟩] concatenates_S1x16x2048_S1x16x2048_S1x16x2048_S3x16x2048_d0),
    unary main_arg15 main_v133 (transpose S2048x32000 [1, 0] · transposes_S32000x2048_S2048x32000_1_0),
    binary main_v128 main_v133 main_v134 (fun l r => Host.dotGeneral dot_S16x2048_S2048x32000_S16x32000_1_0_0_1_n_n none l r),
    unary main_arg16 main_v135 (broadcastInDim S1x32000 ![1] bcast_S32000_S1x32000_1),
    unary main_v135 main_v136 (broadcastInDim S16x32000 ![0, 1] bcast_S1x32000_S16x32000_0_1),
    binary main_v134 main_v136 main_v137 addf,
    TRef.nullary (TRef.of (T := ⟨S_, .f32⟩) main_call1_cst) (constant S_ .f32 0xFF800000#32),
    TRef.binary (TRef.of (T := ⟨S16x32000, .f32⟩) main_v137) (TRef.of (T := ⟨S_, .f32⟩) main_call1_cst) (TRef.of (T := ⟨S16, .f32⟩) main_call1_v0) (fun x v => Host.reduce FloatOps.maximumf x v reducesTo_S16x32000_S16_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S16, .f32⟩) main_call1_v1) (broadcastInDim S16 ![] bcast_S_S16),
    TRef.binary (TRef.of (T := ⟨S16, .f32⟩) main_call1_v1) (TRef.of (T := ⟨S16, .f32⟩) main_call1_v0) (TRef.of (T := ⟨S16, .f32⟩) main_call1_v2) maximumf,
    TRef.unary (TRef.of (T := ⟨S16, .f32⟩) main_call1_v2) (TRef.of (T := ⟨S16x1, .f32⟩) main_call1_v3) (broadcastInDim S16x1 ![0] bcast_S16_S16x1_0),
    TRef.unary (TRef.of (T := ⟨S16x1, .f32⟩) main_call1_v3) (TRef.of (T := ⟨S16x32000, .f32⟩) main_call1_v4) (broadcastInDim S16x32000 ![0, 1] bcast_S16x1_S16x32000_0_1),
    TRef.binary (TRef.of (T := ⟨S16x32000, .f32⟩) main_v137) (TRef.of (T := ⟨S16x32000, .f32⟩) main_call1_v4) (TRef.of (T := ⟨S16x32000, .f32⟩) main_call1_v5) subf,
    TRef.unary (TRef.of (T := ⟨S16x32000, .f32⟩) main_call1_v5) (TRef.of (T := ⟨S16x32000, .f32⟩) main_call1_v6) Host.exp,
    TRef.nullary (TRef.of (T := ⟨S_, .f32⟩) main_call1_cst_1) (constant S_ .f32 0x00000000#32),
    TRef.binary (TRef.of (T := ⟨S16x32000, .f32⟩) main_call1_v6) (TRef.of (T := ⟨S_, .f32⟩) main_call1_cst_1) (TRef.of (T := ⟨S16, .f32⟩) main_call1_v7) (fun x v => Host.reduceAdd x v reducesTo_S16x32000_S16_d1 h_S_),
    TRef.unary (TRef.of (T := ⟨S16, .f32⟩) main_call1_v7) (TRef.of (T := ⟨S16x1, .f32⟩) main_call1_v8) (broadcastInDim S16x1 ![0] bcast_S16_S16x1_0),
    TRef.unary (TRef.of (T := ⟨S16x1, .f32⟩) main_call1_v8) (TRef.of (T := ⟨S16x1, .f32⟩) main_call1_v9) Host.log,
    TRef.unary (TRef.of (T := ⟨S16x1, .f32⟩) main_call1_v9) (TRef.of (T := ⟨S16x32000, .f32⟩) main_call1_v10) (broadcastInDim S16x32000 ![0, 1] bcast_S16x1_S16x32000_0_1),
    TRef.binary (TRef.of (T := ⟨S16x32000, .f32⟩) main_call1_v5) (TRef.of (T := ⟨S16x32000, .f32⟩) main_call1_v10) (TRef.of (T := ⟨S16x32000, .f32⟩) main_v138) subf ]

abbrev ops : List (HloOp τ sig (Elt F)) := ops1 ++ ops2 ++ ops3 ++ ops4

theorem main_eq (c : Dev nD) : main (F := F) c = seq ops := by chain_rfl
theorem ops_sub : (ops : List (HloOp τ sig (Elt F))).Forall fun op => op.bufs ⊆ tcRefs τ sig := by
  simp only [ops, List.forall_append, List.Forall, unary_bufs_sub, binary_bufs_sub, nullary_bufs_sub, reshape_bufs_sub, ternary_bufs_sub, nary_bufs_sub, and_self]
theorem ops_fresh : ∀ op ∈ (ops : List (HloOp τ sig (Elt F))), op.fresh = ∅ :=
  List.forall_iff_forall_mem.mp (by repeat' constructor)

-- Every operation of the line writes one reference, and it comes after the seventeen arguments.
abbrev Wr (l : List (HloOp τ sig (Elt F))) : Prop :=
  l.Forall fun op => ∃ y : Ref sig .tc, 17 ≤ y.idx.1 ∧ op.writes = {Proc.devRef .tc y}

-- Such a line leaves the arguments as they were: a written reference is none of them.
theorem keep {l : List (HloOp τ sig (Elt F))} (hl : Wr l) (V : Valuation τ sig (Elt F)) (r : Ref sig .tc)
    (hr : r.idx.1 < 17) : after l V r = V r :=
  after_of_forall_not_mem l V fun op hop hb => by
    obtain ⟨y, hy, he⟩ := List.forall_iff_forall_mem.mp hl op hop
    rw [he, Finset.mem_singleton] at hb
    rw [Proc.devRef_injective _ hb] at hr
    omega

theorem ops_w : Wr (F := F) ops1 ∧ Wr (F := F) ops2 ∧ Wr (F := F) ops3 ∧ Wr (F := F) ops4 := by
  repeat' apply And.intro
  all_goals exact ⟨_, by decide, rfl⟩

section
variable (V : Valuation τ sig (Elt F)) {a0 : main_arg0.ty.Contents (Elt F)} {a1 : main_arg1.ty.Contents (Elt F)} {a2 : main_arg2.ty.Contents (Elt F)} {a3 : main_arg3.ty.Contents (Elt F)} {a4 a7 a8 a11 a12 : main_arg4.ty.Contents (Elt F)} {a5 a6 a9 a10 a13 a14 : main_arg5.ty.Contents (Elt F)} {a15 : main_arg15.ty.Contents (Elt F)} {a16 : main_arg16.ty.Contents (Elt F)}

-- A stretch from contents that hold the stage values at what it reads: the stage values at what is read later.
theorem p1 (g0 : V main_arg0 = a0) (g2 : V main_arg2 = a2) (g1 : V main_arg1 = a1) (g3 : V main_arg3 = a3) (g5 : V main_arg5 = a5) (g4 : V main_arg4 = a4) (g6 : V main_arg6 = a6) :
    after ops1 V main_v48 = ReadP.val_main_v48 a0 a1 a2 a3 a4 a5 a6 := by
  after_results_simp <;> simp only [TRef.ofBuf, TRef.toBuf, cast_eq, g0, g2, g1, g3, g5, g4, g6] <;> rfl

theorem p2 (g1 : V main_arg1 = a1) (g7 : V main_arg7 = a7) (g9 : V main_arg9 = a9) (g8 : V main_arg8 = a8) (g10 : V main_arg10 = a10) (h48 : V main_v48 = ReadP.val_main_v48 a0 a1 a2 a3 a4 a5 a6) :
    after ops2 V main_v88 = ReadP.val_main_v88 a0 a1 a2 a3 a4 a5 a6 a7 a8 a9 a10 ∧
    after ops2 V main_v48 = ReadP.val_main_v48 a0 a1 a2 a3 a4 a5 a6 := by
  refine ⟨?_, ?_⟩ <;> after_results_simp <;> simp only [TRef.ofBuf, TRef.toBuf, cast_eq, g1, g7, g9, g8, g10, h48] <;> rfl

theorem p3 (g1 : V main_arg1 = a1) (g11 : V main_arg11 = a11) (g13 : V main_arg13 = a13) (g12 : V main_arg12 = a12) (g14 : V main_arg14 = a14) (h88 : V main_v88 = ReadP.val_main_v88 a0 a1 a2 a3 a4 a5 a6 a7 a8 a9 a10) (h48 : V main_v48 = ReadP.val_main_v48 a0 a1 a2 a3 a4 a5 a6) :
    after ops3 V main_v129 = ReadP.val_main_v129 a0 a1 a2 a3 a4 a5 a6 ∧
    after ops3 V main_v130 = ReadP.val_main_v130 a0 a1 a2 a3 a4 a5 a6 a7 a8 a9 a10 ∧
    after ops3 V main_v131 = ReadP.val_main_v131 a0 a1 a2 a3 a4 a5 a6 a7 a8 a9 a10 a11 a12 a13 a14 ∧
    after ops3 V main_v128 = ReadP.val_main_v128 a0 a1 a2 a3 a4 a5 a6 a7 a8 a9 a10 a11 a12 a13 a14 := by
  refine ⟨?_, ?_, ?_, ?_⟩ <;> after_results_simp <;> simp only [TRef.ofBuf, TRef.toBuf, cast_eq, g1, g11, g13, g12, g14, h88, h48] <;> rfl

theorem p4 (g15 : V main_arg15 = a15) (g16 : V main_arg16 = a16) (h129 : V main_v129 = ReadP.val_main_v129 a0 a1 a2 a3 a4 a5 a6) (h130 : V main_v130 = ReadP.val_main_v130 a0 a1 a2 a3 a4 a5 a6 a7 a8 a9 a10) (h131 : V main_v131 = ReadP.val_main_v131 a0 a1 a2 a3 a4 a5 a6 a7 a8 a9 a10 a11 a12 a13 a14) (h128 : V main_v128 = ReadP.val_main_v128 a0 a1 a2 a3 a4 a5 a6 a7 a8 a9 a10 a11 a12 a13 a14) :
    after ops4 V main_v132 = ReadP.val_main_v132 a0 a1 a2 a3 a4 a5 a6 a7 a8 a9 a10 a11 a12 a13 a14 ∧
    after ops4 V main_v138 = ReadP.val_main_v138 a0 a1 a2 a3 a4 a5 a6 a7 a8 a9 a10 a11 a12 a13 a14 a15 a16 := by
  constructor
  · after_results_simp
    show concatenate S3x16x2048 0 [⟨S1x16x2048, V main_v129⟩, ⟨S1x16x2048, V main_v130⟩, ⟨S1x16x2048, V main_v131⟩] concatenates_S1x16x2048_S1x16x2048_S1x16x2048_S3x16x2048_d0 = _
    rw [h129, h130, h131]
    rfl
  · after_results_simp <;> simp only [TRef.ofBuf, TRef.toBuf, cast_eq, g15, g16, h129, h130, h131, h128] <;> rfl

end

-- The four stretches chained from any contents: both results at their stage values, the arguments untouched.
theorem vals (V : Valuation τ sig (Elt F)) :
    (after ops V main_v138 = ReadP.val_main_v138 (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) ∧
      after ops V main_v132 = ReadP.val_main_v132 (V main_arg0) (V main_arg1) (V main_arg2) (V main_arg3) (V main_arg4) (V main_arg5) (V main_arg6) (V main_arg7) (V main_arg8) (V main_arg9) (V main_arg10) (V main_arg11) (V main_arg12) (V main_arg13) (V main_arg14)) ∧
    ∀ r : Ref sig .tc, r.idx.1 < 17 → after ops V r = V r := by
  simp only [ops, after_append]
  obtain ⟨w1, w2, w3, w4⟩ := ops_w (F := F)
  have k1 := keep w1 V
  have k2 := fun r hr => (keep w2 _ r hr).trans (k1 r hr)
  have k3 := fun r hr => (keep w3 _ r hr).trans (k2 r hr)
  have h48 := p1 V rfl rfl rfl rfl rfl rfl rfl
  obtain ⟨h88, h48⟩ := p2 _ (k1 _ (by decide)) (k1 _ (by decide)) (k1 _ (by decide)) (k1 _ (by decide)) (k1 _ (by decide)) h48
  obtain ⟨h129, h130, h131, h128⟩ := p3 _ (k2 _ (by decide)) (k2 _ (by decide)) (k2 _ (by decide)) (k2 _ (by decide)) (k2 _ (by decide)) h88 h48
  obtain ⟨h132, h138⟩ := p4 _ (k3 _ (by decide)) (k3 _ (by decide)) h129 h130 h131 h128
  exact ⟨⟨h138, h132⟩, fun r hr => (keep w4 _ r hr).trans (k3 r hr)⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = ReadP.val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v132) = ReadP.val_main_v132 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => by
    obtain ⟨⟨x, y⟩, k⟩ := vals (launchContents m c)
    refine ⟨(h c _).trans x, (h c _).trans y, ?_⟩
    repeat' apply And.intro
    all_goals exact (h c _).trans (k _ (by decide)))
    (run_seq (by decide) (by decide) defs main (fun _ => ops) main_eq (fun _ => ops_sub) m ρ (fun _ => ops_fresh))

end Cert.ReferenceIdeal.RunC

end
-- ==== Proof.lean ====
import proofs.«415147_j27384711479321_2_alg».proof.Defs
import proofs.«415147_j27384711479321_2_alg».proof.Proof.Gen.Kernel
import proofs.«415147_j27384711479321_2_alg».proof.Proof.Gen.KernelIdeal
import proofs.«415147_j27384711479321_2_alg».proof.Proof.Gen.ReferenceIdeal
import proofs.«415147_j27384711479321_2_alg».proof.Proof.Gen.Pre_finite_inputs
import proofs.«415147_j27384711479321_2_alg».proof.Proof.K.FrameOf
import proofs.«415147_j27384711479321_2_alg».proof.Proof.KI.FrameOf
import proofs.«415147_j27384711479321_2_alg».proof.Proof.Val.Equal
import proofs.«415147_j27384711479321_2_alg».proof.Proof.RefRunChunks

set_option maxRecDepth 16384

noncomputable section

namespace Cert.Proof

open Idealize.ShloMosaic Idealize.ShloMosaic.TcCoe Idealize.SL.Sem

theorem frame_tiled : Cert.frame_Kernel := fun m ρ _ => Cert.Kernel.Seg.frame m ρ

theorem frame_tiled_ideal : Cert.frame_KernelIdeal := fun m ρ _ => Cert.KernelIdeal.Seg.frame m ρ

-- The plain program's frame is its run with the two results forgotten.
theorem frame_plain : Cert.frame_ReferenceIdeal := fun m ρ _ =>
  (θ_run Cert.ReferenceIdeal.defs _ _).mono (fun _ h c => (h c).2.2) (Cert.ReferenceIdeal.RunC.run (F := Ideal) m ρ)

-- Both programs end at one function of the arguments: inside the table (the precondition) the two lookups agree.
theorem algebraic : Cert.algebraic_KernelIdeal_ReferenceIdeal := by
  intro m ρ m' ρ' hpre hagree
  have htok : ∀ c, Cert.KernelIdeal.SegVal.TokensInTable (Cert.KernelIdeal.SegVal.L m c Cert.KernelIdeal.main_arg0) :=
    fun c => Cert.KernelIdeal.SegVal.tokensInTable_of_pre _ _ _ _ _ _ _ _ _ _ _ _ _ _ _ _ _ (hpre c)
  refine ⟨fun c => Cert.KernelIdeal.Gen.V12 m (Cert.KernelIdeal.Seg.outs m) c Cert.KernelIdeal.main_v30,
    fun c => Cert.KernelIdeal.Gen.V12 m (Cert.KernelIdeal.Seg.outs m) c Cert.KernelIdeal.main_v27,
    Cert.KernelIdeal.Seg.run_results m ρ, ?_⟩
  refine (θ_run Cert.ReferenceIdeal.defs _ _).mono (fun r h c => ?_) (Cert.ReferenceIdeal.RunC.run (F := Ideal) m' ρ')
  obtain ⟨h0, h1, h2, h3, h4, h5, h6, h7, h8, h9, h10, h11, h12, h13, h14, h15, h16⟩ := hagree c
  refine ⟨(h c).1.trans ?_, (h c).2.1.trans ?_, (h c).2.2⟩
  · rw [h0, h1, h2, h3, h4, h5, h6, h7, h8, h9, h10, h11, h12, h13, h14, h15, h16]
    show _ = Cert.KernelIdeal.Gen.V12 m (Cert.KernelIdeal.Seg.outs m) c Cert.KernelIdeal.main_v30
    rw [Cert.KernelIdeal.SegVal.tiled_logp m c (htok c)]
    exact Cert.KernelIdeal.SegVal.plain_logp _ _ _ _ _ _ _ _ _ _ _ _ _ _ _ _ _
  · rw [h0, h1, h2, h3, h4, h5, h6, h7, h8, h9, h10, h11, h12, h13, h14]
    show _ = Cert.KernelIdeal.Gen.V12 m (Cert.KernelIdeal.Seg.outs m) c Cert.KernelIdeal.main_v27
    rw [Cert.KernelIdeal.SegVal.tiled_hidden m c (htok c)]
    exact Cert.KernelIdeal.SegVal.plain_hidden _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_tiled, frame_tiled_ideal, frame_plain, trivial, algebraic⟩

end Cert.Proof

end
